-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v103)) (v1 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v103) = v0 c
          ∧ r.2.mem ((c.tc : Thread Cert.KernelIdeal.nD Cert.KernelIdeal.τ).loc Cert.KernelIdeal.main_v93) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_v93) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S4 : Shape := ⟨1, ![4]⟩
abbrev S4x4 : Shape := ⟨2, ![4, 4]⟩
abbrev S4x3x1 : Shape := ⟨3, ![4, 3, 1]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel
  bcast_S_S4 : S_.BroadcastsInDim S4 (![] : Fin 0 → Fin S4.rank)
  reducesTo_S4_S_d0 : S4.ReducesTo [0] S_
  bcast_S_S4x4 : S_.BroadcastsInDim S4x4 (![] : Fin 0 → Fin S4x4.rank)
  reducesTo_S4x4_S_d0_1 : S4x4.ReducesTo [0, 1] S_
  bcast_S_S4x3x1 : S_.BroadcastsInDim S4x3x1 (![] : Fin 0 → Fin S4x3x1.rank)
  reducesTo_S4x3x1_S_d0_1_2 : S4x3x1.ReducesTo [0, 1, 2] S_

variable [Facts]

def fn_part1 {F : FTy → Type} [FloatOps F] (main_arg4 : FVec F S4x3x1 .f32) (main_v13 : IVec S_ 1) (main_v16 : IVec S4x4 1) : IVec S_ 1 :=
  let main_c_5 : IVec S_ 1 := constantI S_ 1 1#1
  let main_v17 : IVec S_ 1 := (fun x v => Host.reduce IntOp.andi x v reducesTo_S4x4_S_d0_1 h_S_) main_v16 main_c_5
  let main_v18 : IVec S_ 1 := andi main_v13 main_v17
  let main_v19 : FVec F S4x3x1 .f32 := Host.absf main_arg4
  let main_cst_6 : FVec F S_ .f32 := constant S_ .f32 0x7F800000#32
  let main_v20 : FVec F S4x3x1 .f32 := broadcastInDim S4x3x1 ![] bcast_S_S4x3x1 main_cst_6
  let main_v21 : IVec S4x3x1 1 := cmpf .olt main_v19 main_v20
  let main_c_7 : IVec S_ 1 := constantI S_ 1 1#1
  let main_v22 : IVec S_ 1 := (fun x v => Host.reduce IntOp.andi x v reducesTo_S4x3x1_S_d0_1_2 h_S_) main_v21 main_c_7
  let main_v23 : IVec S_ 1 := andi main_v18 main_v22
  main_v23

def fn {F : FTy → Type} [FloatOps F] (main_arg0 : FVec F S4x8192x3 .f32) (main_arg1 : FVec F S4x8192x3 .f32) (main_arg2 : FVec F S4 .f32) (main_arg3 : FVec F S4x4 .f32) (main_arg4 : FVec F S4x3x1 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  let main_v9 : FVec F S4 .f32 := Host.absf main_arg2
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  let main_v14 : FVec F S4x4 .f32 := Host.absf main_arg3
  let main_cst_4 : FVec F S_ .f32 := constant S_ .f32 0x7F800000#32
  let main_v15 : FVec F S4x4 .f32 := broadcastInDim S4x4 ![] bcast_S_S4x4 main_cst_4
  let main_v16 : IVec S4x4 1 := cmpf .olt main_v14 main_v15
  fn_part1 (F := F) main_arg4 main_v13 main_v16
-- ==== Kernel.lean ====
abbrev S4x8192x3 : Shape := ⟨3, ![4, 8192, 3]⟩
abbrev S4 : Shape := ⟨1, ![4]⟩
abbrev S4x4 : Shape := ⟨2, ![4, 4]⟩
abbrev S4x3x1 : Shape := ⟨3, ![4, 3, 1]⟩
abbrev S1x1x4 : Shape := ⟨3, ![1, 1, 4]⟩
abbrev S_ : Shape := ⟨0, ![]⟩
abbrev S4x1 : Shape := ⟨2, ![4, 1]⟩
abbrev S4x9 : Shape := ⟨2, ![4, 9]⟩
abbrev S4x3x3 : Shape := ⟨3, ![4, 3, 3]⟩
abbrev S4x3x4 : Shape := ⟨3, ![4, 3, 4]⟩
abbrev S4x1x4 : Shape := ⟨3, ![4, 1, 4]⟩
abbrev S4x4x4 : Shape := ⟨3, ![4, 4, 4]⟩
abbrev S4x8192x1 : Shape := ⟨3, ![4, 8192, 1]⟩
abbrev S4x8192x4 : Shape := ⟨3, ![4, 8192, 4]⟩
abbrev S4x8x128 : Shape := ⟨3, ![4, 8, 128]⟩
abbrev S1x1024x4 : Shape := ⟨3, ![1, 1024, 4]⟩
abbrev S1x8x128 : Shape := ⟨3, ![1, 8, 128]⟩
abbrev S1024x1 : Shape := ⟨2, ![1024, 1]⟩
abbrev S1x8192 : Shape := ⟨2, ![1, 8192]⟩
abbrev S1x1 : Shape := ⟨2, ![1, 1]⟩
abbrev S1024x4 : Shape := ⟨2, ![1024, 4]⟩
abbrev S1024 : Shape := ⟨1, ![1024]⟩
abbrev S1x1024 : Shape := ⟨2, ![1, 1024]⟩
abbrev S1024x1024 : Shape := ⟨2, ![1024, 1024]⟩
abbrev S1 : Shape := ⟨1, ![1]⟩
abbrev S8x128 : Shape := ⟨2, ![8, 128]⟩
abbrev S4x1x1 : Shape := ⟨3, ![4, 1, 1]⟩

abbrev nBuf : Space → Nat
  | .hbm => 138
  | .vmem => 10
  | .smem => 0
  | _ => 0

abbrev hbmTy0_0 (i : Nat) : BufTy := match i % 128 with
  | 0 => ⟨S4x8192x3, .f32⟩
  | 1 => ⟨S4x8192x3, .f32⟩
  | 2 => ⟨S4, .f32⟩
  | 3 => ⟨S4x4, .f32⟩
  | 4 => ⟨S4x3x1, .f32⟩
  | 5 => ⟨S1x1x4, .f32⟩
  | 6 => ⟨S4x4, .f32⟩
  | 7 => ⟨S_, .f32⟩
  | 8 => ⟨S4, .f32⟩
  | 9 => ⟨S4x1, .f32⟩
  | 10 => ⟨S4x1, .f32⟩
  | 11 => ⟨S4x4, .f32⟩
  | 12 => ⟨S4x4, .f32⟩
  | 13 => ⟨S4x1, .f32⟩
  | 14 => ⟨S4, .f32⟩
  | 15 => ⟨S4x1, .f32⟩
  | 16 => ⟨S4, .f32⟩
  | 17 => ⟨S4x1, .f32⟩
  | 18 => ⟨S4, .f32⟩
  | 19 => ⟨S4x1, .f32⟩
  | 20 => ⟨S4, .f32⟩
  | 21 => ⟨S_, .f32⟩
  | 22 => ⟨S4, .f32⟩
  | 23 => ⟨S4, .f32⟩
  | 24 => ⟨S4, .f32⟩
  | 25 => ⟨S_, .f32⟩
  | 26 => ⟨S4, .f32⟩
  | 27 => ⟨S4, .f32⟩
  | 28 => ⟨S_, .f32⟩
  | 29 => ⟨S4, .f32⟩
  | 30 => ⟨S4, .f32⟩
  | 31 => ⟨S4, .f32⟩
  | 32 => ⟨S4, .f32⟩
  | 33 => ⟨S_, .f32⟩
  | 34 => ⟨S4, .f32⟩
  | 35 => ⟨S4, .f32⟩
  | 36 => ⟨S4, .f32⟩
  | 37 => ⟨S_, .f32⟩
  | 38 => ⟨S4, .f32⟩
  | 39 => ⟨S4, .f32⟩
  | 40 => ⟨S4, .f32⟩
  | 41 => ⟨S4, .f32⟩
  | 42 => ⟨S_, .f32⟩
  | 43 => ⟨S4, .f32⟩
  | 44 => ⟨S4, .f32⟩
  | 45 => ⟨S4, .f32⟩
  | 46 => ⟨S_, .f32⟩
  | 47 => ⟨S4, .f32⟩
  | 48 => ⟨S4, .f32⟩
  | 49 => ⟨S4, .f32⟩
  | 50 => ⟨S4, .f32⟩
  | 51 => ⟨S_, .f32⟩
  | 52 => ⟨S4, .f32⟩
  | 53 => ⟨S4, .f32⟩
  | 54 => ⟨S4, .f32⟩
  | 55 => ⟨S_, .f32⟩
  | 56 => ⟨S4, .f32⟩
  | 57 => ⟨S4, .f32⟩
  | 58 => ⟨S4, .f32⟩
  | 59 => ⟨S4, .f32⟩
  | 60 => ⟨S_, .f32⟩
  | 61 => ⟨S4, .f32⟩
  | 62 => ⟨S4, .f32⟩
  | 63 => ⟨S4, .f32⟩
  | 64 => ⟨S_, .f32⟩
  | 65 => ⟨S4, .f32⟩
  | 66 => ⟨S4, .f32⟩
  | 67 => ⟨S_, .f32⟩
  | 68 => ⟨S4, .f32⟩
  | 69 => ⟨S4, .f32⟩
  | 70 => ⟨S4, .f32⟩
  | 71 => ⟨S4, .f32⟩
  | 72 => ⟨S_, .f32⟩
  | 73 => ⟨S4, .f32⟩
  | 74 => ⟨S4, .f32⟩
  | 75 => ⟨S4, .f32⟩
  | 76 => ⟨S_, .f32⟩
  | 77 => ⟨S4, .f32⟩
  | 78 => ⟨S4, .f32⟩
  | 79 => ⟨S4, .f32⟩
  | 80 => ⟨S4, .f32⟩
  | 81 => ⟨S_, .f32⟩
  | 82 => ⟨S4, .f32⟩
  | 83 => ⟨S4, .f32⟩
  | 84 => ⟨S4, .f32⟩
  | 85 => ⟨S_, .f32⟩
  | 86 => ⟨S4, .f32⟩
  | 87 => ⟨S4, .f32⟩
  | 88 => ⟨S4, .f32⟩
  | 89 => ⟨S4, .f32⟩
  | 90 => ⟨S_, .f32⟩
  | 91 => ⟨S4, .f32⟩
  | 92 => ⟨S4, .f32⟩
  | 93 => ⟨S4, .f32⟩
  | 94 => ⟨S_, .f32⟩
  | 95 => ⟨S4, .f32⟩
  | 96 => ⟨S4, .f32⟩
  | 97 => ⟨S4, .f32⟩
  | 98 => ⟨S4, .f32⟩
  | 99 => ⟨S_, .f32⟩
  | 100 => ⟨S4, .f32⟩
  | 101 => ⟨S4, .f32⟩
  | 102 => ⟨S4, .f32⟩
  | 103 => ⟨S_, .f32⟩
  | 104 => ⟨S4, .f32⟩
  | 105 => ⟨S4, .f32⟩
  | 106 => ⟨S_, .f32⟩
  | 107 => ⟨S4, .f32⟩
  | 108 => ⟨S4, .f32⟩
  | 109 => ⟨S4, .f32⟩
  | 110 => ⟨S4, .f32⟩
  | 111 => ⟨S4x1, .f32⟩
  | 112 => ⟨S4x1, .f32⟩
  | 113 => ⟨S4x1, .f32⟩
  | 114 => ⟨S4x1, .f32⟩
  | 115 => ⟨S4x1, .f32⟩
  | 116 => ⟨S4x1, .f32⟩
  | 117 => ⟨S4x1, .f32⟩
  | 118 => ⟨S4x1, .f32⟩
  | 119 => ⟨S4x1, .f32⟩
  | 120 => ⟨S4x9, .f32⟩
  | 121 => ⟨S4x3x3, .f32⟩
  | 122 => ⟨S4x3x4, .f32⟩
  | 123 => ⟨S4x1x4, .f32⟩
  | 124 => ⟨S4x4x4, .f32⟩
  | 125 => ⟨S_, .f32⟩
  | 126 => ⟨S4x8192x1, .f32⟩
  | 127 => ⟨S_, .f32⟩
  | _ => ⟨S4x8192x3, .f32⟩

abbrev hbmTy0_1 (i : Nat) : BufTy := match i % 128 with
  | 0 => ⟨S4x8192x1, .f32⟩
  | 1 => ⟨S4x8192x4, .f32⟩
  | 2 => ⟨S4x8192x4, .f32⟩
  | 3 => ⟨S4x8192x4, .f32⟩
  | 4 => ⟨S4x8x128, .f32⟩
  | 5 => ⟨S4x1x1, .f32⟩
  | 6 => ⟨S4, .f32⟩
  | 7 => ⟨S4, .f32⟩
  | 8 => ⟨S_, .f32⟩
  | 9 => ⟨S_, .f32⟩
  | _ => ⟨S4x8192x3, .f32⟩

abbrev hbmTy (i : Nat) : BufTy := match i / 128 with
  | 0 => hbmTy0_0 i
  | 1 => hbmTy0_1 i
  | _ => ⟨S4x8192x3, .f32⟩

abbrev bufTy : (tb : Table) → Fin (tcTables nBuf tb) → BufTy
  | .hbm, ⟨i, _⟩ => hbmTy i
  | .local _ .vmem, ⟨0, _⟩ => ⟨S1x1024x4, .f32⟩
  | .local _ .vmem, ⟨1, _⟩ => ⟨S1x1024x4, .f32⟩
  | .local _ .vmem, ⟨2, _⟩ => ⟨S1x1024x4, .f32⟩
  | .local _ .vmem, ⟨3, _⟩ => ⟨S1x1024x4, .f32⟩
  | .local _ .vmem, ⟨4, _⟩ => ⟨S1x8x128, .f32⟩
  | .local _ .vmem, ⟨5, _⟩ => ⟨S1x8x128, .f32⟩
  | .local _ .vmem, ⟨6, _⟩ => ⟨S1024x1, .f32⟩
  | .local _ .vmem, ⟨7, _⟩ => ⟨S1x8192, .f32⟩
  | .local _ .vmem, ⟨8, _⟩ => ⟨S1x1, .f32⟩
  | .local _ .vmem, ⟨9, _⟩ => ⟨S1x1, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_call0_v2 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_8 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_9 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_10 : Ref sig .tc := ⟨.hbm, 64, rfl⟩
abbrev main_v44 : Ref sig .tc := ⟨.hbm, 65, rfl⟩
abbrev main_v45 : Ref sig .tc := ⟨.hbm, 66, rfl⟩
abbrev main_cst_11 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_12 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_13 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_14 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_15 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_16 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_17 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_18 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_19 : Ref sig .tc := ⟨.hbm, 103, rfl⟩
abbrev main_v74 : Ref sig .tc := ⟨.hbm, 104, rfl⟩
abbrev main_v75 : Ref sig .tc := ⟨.hbm, 105, rfl⟩
abbrev main_cst_20 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_cst_21 : Ref sig .tc := ⟨.hbm, 125, rfl⟩
abbrev main_v94 : Ref sig .tc := ⟨.hbm, 126, rfl⟩
abbrev main_cst_22 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_cst_23 : Ref sig .tc := ⟨.hbm, 136, rfl⟩
abbrev main_v103 : Ref sig .tc := ⟨.hbm, 137, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 8], ![false, false, false]⟩

def k0_mult1 (i : grid0.Coords) : BitVec 32 :=
  let arg2 : BitVec 32 := BitVec.ofNat 32 (i 2).val
  let c1024_i32 : BitVec 32 := 1024#32
  let v40 : BitVec 32 := Scalar.muli arg2 c1024_i32
  v40
def k0_off1 (i : grid0.Coords) : Fin 2 → Nat :=
  let c0_19 : Index := 0#32
  let arg2 : BitVec 32 := BitVec.ofNat 32 (i 2).val
  let c1024_i32 : BitVec 32 := 1024#32
  let v40 : BitVec 32 := Scalar.muli arg2 c1024_i32
  let v41 : BitVec 32 := v40
  let v42 : Index := Scalar.indexCast v41
  ![0, v42.toNat]
def k0_cond4 (i : grid0.Coords) : BitVec 1 :=
  let arg1 : BitVec 32 := BitVec.ofNat 32 (i 1).val
  let c7_i32_22 : BitVec 32 := 7#32
  let v52 : BitVec 1 := Scalar.cmpi .eq arg1 c7_i32_22
  let v53 : BitVec 32 := Scalar.extui v52
  let c0_i32_23 : BitVec 32 := 0#32
  let v54 : BitVec 1 := Scalar.cmpi .ne v53 c0_i32_23
  v54

def k0_off2 (i : grid0.Coords) : Fin 2 → Nat :=
  let c0_27 : Index := 0#32
  let arg2 : BitVec 32 := BitVec.ofNat 32 (i 2).val
  let c1024_i32 : BitVec 32 := 1024#32
  let v40 : BitVec 32 := Scalar.muli arg2 c1024_i32
  let v41 : BitVec 32 := v40
  let v60 : Index := Scalar.indexCast v41
  ![0, v60.toNat]
def k0_cond5 (i : grid0.Coords) : BitVec 1 :=
  let arg1 : BitVec 32 := BitVec.ofNat 32 (i 1).val
  let c7_i32_24 : BitVec 32 := 7#32
  let v55 : BitVec 1 := Scalar.cmpi .eq arg1 c7_i32_24
  let arg2 : BitVec 32 := BitVec.ofNat 32 (i 2).val
  let c7_i32_25 : BitVec 32 := 7#32
  let v56 : BitVec 1 := Scalar.cmpi .eq arg2 c7_i32_25
  let v57 : BitVec 1 := Scalar.andi v55 v56
  let v58 : BitVec 32 := Scalar.extui v57
  let c0_i32_26 : BitVec 32 := 0#32
  let v59 : BitVec 1 := Scalar.cmpi .ne v58 c0_i32_26
  v59

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

class Facts₀ : Prop where
  reducesTo_S4x4_S4_d1 : S4x4.ReducesTo [1] S4
  h_S_ : 0 < S_.numel
  bcast_S4_S4x1_0 : S4.BroadcastsInDim S4x1 (![0] : Fin 1 → Fin S4x1.rank)
  bcast_S4x1_S4x4_0_1 : S4x1.BroadcastsInDim S4x4 (![0, 1] : Fin 2 → Fin S4x4.rank)
  slices_S4x4_S4x1_0_0 : S4x4.Slices ![0, 0] S4x1
  shapeCasts_S4x1_S4 : S4x1.ShapeCasts S4
  slices_S4x4_S4x1_0_1 : S4x4.Slices ![0, 1] S4x1
  slices_S4x4_S4x1_0_2 : S4x4.Slices ![0, 2] S4x1
  slices_S4x4_S4x1_0_3 : S4x4.Slices ![0, 3] S4x1
  bcast_S_S4 : S_.BroadcastsInDim S4 (![] : Fin 0 → Fin S4.rank)
  concatenates_S4x1_S4x1_S4x1_S4x1_S4x1_S4x1_S4x1_S4x1_S4x1_S4x9_d1 : Shape.Concatenates [S4x1, S4x1, S4x1, S4x1, S4x1, S4x1, S4x1, S4x1, S4x1] S4x9 1
  shapeCasts_S4x9_S4x3x3 : S4x9.ShapeCasts S4x3x3
  concatenates_S4x3x3_S4x3x1_S4x3x4_d2 : Shape.Concatenates [S4x3x3, S4x3x1] S4x3x4 2
  bcast_S1x1x4_S4x1x4_0_1_2 : S1x1x4.BroadcastsInDim S4x1x4 (![0, 1, 2] : Fin 3 → Fin S4x1x4.rank)
  concatenates_S4x3x4_S4x1x4_S4x4x4_d1 : Shape.Concatenates [S4x3x4, S4x1x4] S4x4x4 1
  bcast_S_S4x8192x1 : S_.BroadcastsInDim S4x8192x1 (![] : Fin 0 → Fin S4x8192x1.rank)
  concatenates_S4x8192x3_S4x8192x1_S4x8192x4_d2 : Shape.Concatenates [S4x8192x3, S4x8192x1] S4x8192x4 2
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x1024x4_S1x1024x4_0_0_0 : ∀ a, (![0, 0, 0] : Fin 3 → Nat) a + S1x1024x4.size a ≤ S1x1024x4.size a
  h_S1x1024x4 : 0 < S1x1024x4.numel
  shapeCasts_S1x1024x4_S1024x4 : S1x1024x4.ShapeCasts S1024x4
  reduces_S1024x4_S1024 : S1024x4.Reduces [1] S1024
  shapeCasts_S1024_S1024x1 : S1024.ShapeCasts S1024x1
  transposes_S1024x1_p1_0_S1x1024 : S1024x1.Transposes [1, 0] S1x1024
  bitsLt_bf16_f32 : FTy.bits .bf16 < FTy.bits .f32
  broadcasts_S1024x1_S1024x1024 : S1024x1.Broadcasts S1024x1024
  broadcasts_S1x1024_S1024x1024 : S1x1024.Broadcasts S1024x1024
  reduces_S1024x1024_S1024 : S1024x1024.Reduces [1] S1024
  reduces_S1024x1024_S1024_2 : S1024x1024.Reduces [0] S1024
  shapeCasts_S1024_S1x1024 : S1024.ShapeCasts S1x1024
  h_S1x1024 : 0 < S1x1024.numel
  shapeCasts_S1x1024_S1x1024 : S1x1024.ShapeCasts S1x1024
  reduces_S1024x1_S1 : S1024x1.Reduces [0] S1
  shapeCasts_S1_S1x1 : S1.ShapeCasts S1x1
  reduces_S1x1024_S1 : S1x1024.Reduces [1] S1
  broadcasts_S1x1_S8x128 : S1x1.Broadcasts S8x128
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  slices_S4x8x128_S4x1x1_0_0_0 : S4x8x128.Slices ![0, 0, 0] S4x1x1
  shapeCasts_S4x1x1_S4 : S4x1x1.ShapeCasts S4
  reducesTo_S4_S_d0 : S4.ReducesTo [0] S_
  dot_S4x8192x4_S4x4x4_S4x8192x4_2_2_1_1_0_0_wf : DotDims.WF S4x8192x4 S4x4x4 S4x8192x4 [2] [2] [1] [1] [0] [0]
  dot_S1024x4_S1024x4_S1024x1024_1_1_0_0_n_n_wf : DotDims.WF S1024x4 S1024x4 S1024x1024 [1] [1] [0] [0] [] []
  hrank0 : 0 < grid0.rank
  k0_mult1_dvd : ∀ i : grid0.Coords, 1024 ∣ (k0_mult1 i).toNat
  k0_off1_inb : ∀ i : grid0.Coords, ∀ a, (k0_off1 i) a + S1x1024.size a ≤ S1x8192.size a
  k0_off2_inb : ∀ i : grid0.Coords, ∀ (k0_h4 : k0_cond4 i = 1#1), ∀ a, (k0_off2 i) a + S1x1024.size a ≤ S1x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x4.size a ≤ S4x8192x4.size a
  hwx0_0 : ∀ i : grid0.Coords, EltTy.bits .f32 = 32 ∨ (Rect.block (s := S4x8192x4) S1x1024x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x4.size a ≤ S4x8192x4.size a
  hwx0_1 : ∀ i : grid0.Coords, EltTy.bits .f32 = 32 ∨ (Rect.block (s := S4x8192x4) S1x1024x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S4x8x128.size a
  hwx0_2 : ∀ i : grid0.Coords, EltTy.bits .f32 = 32 ∨ (Rect.block (s := S4x8x128) S1x8x128.size (cc0_transform_2 i) (hinb0_2 i)).WholeWords (EltTy.packing .f32)

variable [Facts₀]

def dot_S4x8192x4_S4x4x4_S4x8192x4_2_2_1_1_0_0 : DotDims S4x8192x4 S4x4x4 S4x8192x4 where
  lhsContracting := [2]
  rhsContracting := [2]
  lhsNonContracting := [1]
  rhsNonContracting := [1]
  lhsBatch := [0]
  rhsBatch := [0]
  wf := dot_S4x8192x4_S4x4x4_S4x8192x4_2_2_1_1_0_0_wf
def dot_S1024x4_S1024x4_S1024x1024_1_1_0_0_n_n : DotDims S1024x4 S1024x4 S1024x1024 where
  lhsContracting := [1]
  rhsContracting := [1]
  lhsNonContracting := [0]
  rhsNonContracting := [0]
  lhsBatch := []
  rhsBatch := []
  wf := dot_S1024x4_S1024x4_S1024x1024_1_1_0_0_n_n_wf

abbrev win0_0 : Pipeline.Window sig grid0 :=
  Pipeline.Window.ofSpec (Memref.whole main_v98) S1x1024x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v97) S1x1024x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v99) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond5 i == 1#1) | ⟨_ + 3, h⟩ => absurd h (Nat.not_lt.2 (Nat.le_add_left _ _))

class Facts : Prop extends Facts₀ where

variable [Facts]
-- ==== ReferenceIdeal.lean ====
abbrev S4x8192x3 : Shape := ⟨3, ![4, 8192, 3]⟩
abbrev S4 : Shape := ⟨1, ![4]⟩
abbrev S4x4 : Shape := ⟨2, ![4, 4]⟩
abbrev S4x3x1 : Shape := ⟨3, ![4, 3, 1]⟩
abbrev S1x1x4 : Shape := ⟨3, ![1, 1, 4]⟩
abbrev S_ : Shape := ⟨0, ![]⟩
abbrev S4x1 : Shape := ⟨2, ![4, 1]⟩
abbrev S4x9 : Shape := ⟨2, ![4, 9]⟩
abbrev S4x3x3 : Shape := ⟨3, ![4, 3, 3]⟩
abbrev S4x3x4 : Shape := ⟨3, ![4, 3, 4]⟩
abbrev S4x1x4 : Shape := ⟨3, ![4, 1, 4]⟩
abbrev S4x4x4 : Shape := ⟨3, ![4, 4, 4]⟩
abbrev S4x8192x1 : Shape := ⟨3, ![4, 8192, 1]⟩
abbrev S4x8192x4 : Shape := ⟨3, ![4, 8192, 4]⟩
abbrev S4x8192 : Shape := ⟨2, ![4, 8192]⟩
abbrev S4x1x8192 : Shape := ⟨3, ![4, 1, 8192]⟩
abbrev S4x8192x8192 : Shape := ⟨3, ![4, 8192, 8192]⟩
abbrev S4x4x8192 : Shape := ⟨3, ![4, 4, 8192]⟩

abbrev nBuf : Space → Nat
  | .hbm => 172
  | .vmem => 0
  | .smem => 0
  | _ => 0

abbrev hbmTy0_0 (i : Nat) : BufTy := match i % 128 with
  | 0 => ⟨S4x8192x3, .f32⟩
  | 1 => ⟨S4x8192x3, .f32⟩
  | 2 => ⟨S4, .f32⟩
  | 3 => ⟨S4x4, .f32⟩
  | 4 => ⟨S4x3x1, .f32⟩
  | 5 => ⟨S1x1x4, .f32⟩
  | 6 => ⟨S4x4, .f32⟩
  | 7 => ⟨S_, .f32⟩
  | 8 => ⟨S4, .f32⟩
  | 9 => ⟨S4x1, .f32⟩
  | 10 => ⟨S4x1, .f32⟩
  | 11 => ⟨S4x4, .f32⟩
  | 12 => ⟨S4x4, .f32⟩
  | 13 => ⟨S4x1, .f32⟩
  | 14 => ⟨S4, .f32⟩
  | 15 => ⟨S4x1, .f32⟩
  | 16 => ⟨S4, .f32⟩
  | 17 => ⟨S4x1, .f32⟩
  | 18 => ⟨S4, .f32⟩
  | 19 => ⟨S4x1, .f32⟩
  | 20 => ⟨S4, .f32⟩
  | 21 => ⟨S_, .f32⟩
  | 22 => ⟨S4, .f32⟩
  | 23 => ⟨S4, .f32⟩
  | 24 => ⟨S4, .f32⟩
  | 25 => ⟨S_, .f32⟩
  | 26 => ⟨S4, .f32⟩
  | 27 => ⟨S4, .f32⟩
  | 28 => ⟨S_, .f32⟩
  | 29 => ⟨S4, .f32⟩
  | 30 => ⟨S4, .f32⟩
  | 31 => ⟨S4, .f32⟩
  | 32 => ⟨S4, .f32⟩
  | 33 => ⟨S_, .f32⟩
  | 34 => ⟨S4, .f32⟩
  | 35 => ⟨S4, .f32⟩
  | 36 => ⟨S4, .f32⟩
  | 37 => ⟨S_, .f32⟩
  | 38 => ⟨S4, .f32⟩
  | 39 => ⟨S4, .f32⟩
  | 40 => ⟨S4, .f32⟩
  | 41 => ⟨S4, .f32⟩
  | 42 => ⟨S_, .f32⟩
  | 43 => ⟨S4, .f32⟩
  | 44 => ⟨S4, .f32⟩
  | 45 => ⟨S4, .f32⟩
  | 46 => ⟨S_, .f32⟩
  | 47 => ⟨S4, .f32⟩
  | 48 => ⟨S4, .f32⟩
  | 49 => ⟨S4, .f32⟩
  | 50 => ⟨S4, .f32⟩
  | 51 => ⟨S_, .f32⟩
  | 52 => ⟨S4, .f32⟩
  | 53 => ⟨S4, .f32⟩
  | 54 => ⟨S4, .f32⟩
  | 55 => ⟨S_, .f32⟩
  | 56 => ⟨S4, .f32⟩
  | 57 => ⟨S4, .f32⟩
  | 58 => ⟨S4, .f32⟩
  | 59 => ⟨S4, .f32⟩
  | 60 => ⟨S_, .f32⟩
  | 61 => ⟨S4, .f32⟩
  | 62 => ⟨S4, .f32⟩
  | 63 => ⟨S4, .f32⟩
  | 64 => ⟨S_, .f32⟩
  | 65 => ⟨S4, .f32⟩
  | 66 => ⟨S4, .f32⟩
  | 67 => ⟨S_, .f32⟩
  | 68 => ⟨S4, .f32⟩
  | 69 => ⟨S4, .f32⟩
  | 70 => ⟨S4, .f32⟩
  | 71 => ⟨S4, .f32⟩
  | 72 => ⟨S_, .f32⟩
  | 73 => ⟨S4, .f32⟩
  | 74 => ⟨S4, .f32⟩
  | 75 => ⟨S4, .f32⟩
  | 76 => ⟨S_, .f32⟩
  | 77 => ⟨S4, .f32⟩
  | 78 => ⟨S4, .f32⟩
  | 79 => ⟨S4, .f32⟩
  | 80 => ⟨S4, .f32⟩
  | 81 => ⟨S_, .f32⟩
  | 82 => ⟨S4, .f32⟩
  | 83 => ⟨S4, .f32⟩
  | 84 => ⟨S4, .f32⟩
  | 85 => ⟨S_, .f32⟩
  | 86 => ⟨S4, .f32⟩
  | 87 => ⟨S4, .f32⟩
  | 88 => ⟨S4, .f32⟩
  | 89 => ⟨S4, .f32⟩
  | 90 => ⟨S_, .f32⟩
  | 91 => ⟨S4, .f32⟩
  | 92 => ⟨S4, .f32⟩
  | 93 => ⟨S4, .f32⟩
  | 94 => ⟨S_, .f32⟩
  | 95 => ⟨S4, .f32⟩
  | 96 => ⟨S4, .f32⟩
  | 97 => ⟨S4, .f32⟩
  | 98 => ⟨S4, .f32⟩
  | 99 => ⟨S_, .f32⟩
  | 100 => ⟨S4, .f32⟩
  | 101 => ⟨S4, .f32⟩
  | 102 => ⟨S4, .f32⟩
  | 103 => ⟨S_, .f32⟩
  | 104 => ⟨S4, .f32⟩
  | 105 => ⟨S4, .f32⟩
  | 106 => ⟨S_, .f32⟩
  | 107 => ⟨S4, .f32⟩
  | 108 => ⟨S4, .f32⟩
  | 109 => ⟨S4, .f32⟩
  | 110 => ⟨S4, .f32⟩
  | 111 => ⟨S4x1, .f32⟩
  | 112 => ⟨S4x1, .f32⟩
  | 113 => ⟨S4x1, .f32⟩
  | 114 => ⟨S4x1, .f32⟩
  | 115 => ⟨S4x1, .f32⟩
  | 116 => ⟨S4x1, .f32⟩
  | 117 => ⟨S4x1, .f32⟩
  | 118 => ⟨S4x1, .f32⟩
  | 119 => ⟨S4x1, .f32⟩
  | 120 => ⟨S4x9, .f32⟩
  | 121 => ⟨S4x3x3, .f32⟩
  | 122 => ⟨S4x3x4, .f32⟩
  | 123 => ⟨S4x1x4, .f32⟩
  | 124 => ⟨S4x4x4, .f32⟩
  | 125 => ⟨S_, .f32⟩
  | 126 => ⟨S4x8192x1, .f32⟩
  | 127 => ⟨S_, .f32⟩
  | _ => ⟨S4x8192x3, .f32⟩

abbrev hbmTy0_1 (i : Nat) : BufTy := match i % 128 with
  | 0 => ⟨S4x8192x1, .f32⟩
  | 1 => ⟨S4x8192x4, .f32⟩
  | 2 => ⟨S4x8192x4, .f32⟩
  | 3 => ⟨S4x8192x4, .f32⟩
  | 4 => ⟨S4x8192x4, .f32⟩
  | 5 => ⟨S_, .f32⟩
  | 6 => ⟨S4x8192, .f32⟩
  | 7 => ⟨S4x8192x4, .f32⟩
  | 8 => ⟨S_, .f32⟩
  | 9 => ⟨S4x8192, .f32⟩
  | 10 => ⟨S4x8192x1, .f32⟩
  | 11 => ⟨S4x1x8192, .f32⟩
  | 12 => ⟨S4x8192x8192, .f32⟩
  | 13 => ⟨S4x8192x8192, .f32⟩
  | 14 => ⟨S4x8192x8192, .f32⟩
  | 15 => ⟨S4x4x8192, .f32⟩
  | 16 => ⟨S4x8192x8192, .f32⟩
  | 17 => ⟨S_, .f32⟩
  | 18 => ⟨S4x8192x8192, .f32⟩
  | 19 => ⟨S4x8192x8192, .f32⟩
  | 20 => ⟨S4x8192x8192, .f32⟩
  | 21 => ⟨S_, .f32⟩
  | 22 => ⟨S_, .f32⟩
  | 23 => ⟨S4x8192x8192, .f32⟩
  | 24 => ⟨S4x8192x8192, .f32⟩
  | 25 => ⟨S4x8192x8192, .f32⟩
  | 26 => ⟨S_, .f32⟩
  | 27 => ⟨S4x8192, .f32⟩
  | 28 => ⟨S_, .f32⟩
  | 29 => ⟨S4, .f32⟩
  | 30 => ⟨S_, .f32⟩
  | 31 => ⟨S4, .f32⟩
  | 32 => ⟨S4, .f32⟩
  | 33 => ⟨S_, .f32⟩
  | 34 => ⟨S4x8192, .f32⟩
  | 35 => ⟨S_, .f32⟩
  | 36 => ⟨S4, .f32⟩
  | 37 => ⟨S_, .f32⟩
  | 38 => ⟨S4, .f32⟩
  | 39 => ⟨S4, .f32⟩
  | 40 => ⟨S4, .f32⟩
  | 41 => ⟨S4, .f32⟩
  | 42 => ⟨S_, .f32⟩
  | 43 => ⟨S_, .f32⟩
  | _ => ⟨S4x8192x3, .f32⟩

abbrev hbmTy (i : Nat) : BufTy := match i / 128 with
  | 0 => hbmTy0_0 i
  | 1 => hbmTy0_1 i
  | _ => ⟨S4x8192x3, .f32⟩

abbrev bufTy : (tb : Table) → Fin (tcTables nBuf tb) → BufTy
  | .hbm, ⟨i, _⟩ => hbmTy i
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_call0_v2 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_8 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_9 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_10 : Ref sig .tc := ⟨.hbm, 64, rfl⟩
abbrev main_v44 : Ref sig .tc := ⟨.hbm, 65, rfl⟩
abbrev main_v45 : Ref sig .tc := ⟨.hbm, 66, rfl⟩
abbrev main_cst_11 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_12 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_13 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_14 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_15 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_16 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_17 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_18 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_19 : Ref sig .tc := ⟨.hbm, 103, rfl⟩
abbrev main_v74 : Ref sig .tc := ⟨.hbm, 104, rfl⟩
abbrev main_v75 : Ref sig .tc := ⟨.hbm, 105, rfl⟩
abbrev main_cst_20 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_cst_21 : Ref sig .tc := ⟨.hbm, 125, rfl⟩
abbrev main_v94 : Ref sig .tc := ⟨.hbm, 126, rfl⟩
abbrev main_cst_22 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_cst_23 : Ref sig .tc := ⟨.hbm, 133, rfl⟩
abbrev main_v100 : Ref sig .tc := ⟨.hbm, 134, rfl⟩
abbrev main_v101 : Ref sig .tc := ⟨.hbm, 135, rfl⟩
abbrev main_cst_24 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_cst_25 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_cst_26 : Ref sig .tc := ⟨.hbm, 149, rfl⟩
abbrev main_call1_v0 : Ref sig .tc := ⟨.hbm, 150, rfl⟩
abbrev main_call1_v1 : Ref sig .tc := ⟨.hbm, 151, rfl⟩
abbrev main_v113 : Ref sig .tc := ⟨.hbm, 152, rfl⟩
abbrev main_v114 : Ref sig .tc := ⟨.hbm, 153, rfl⟩
abbrev main_cst_27 : Ref sig .tc := ⟨.hbm, 154, rfl⟩
abbrev main_v115 : Ref sig .tc := ⟨.hbm, 155, rfl⟩
abbrev main_cst_28 : Ref sig .tc := ⟨.hbm, 156, rfl⟩
abbrev main_v116 : Ref sig .tc := ⟨.hbm, 157, rfl⟩
abbrev main_cst_29 : Ref sig .tc := ⟨.hbm, 158, rfl⟩
abbrev main_v117 : Ref sig .tc := ⟨.hbm, 159, rfl⟩
abbrev main_v118 : Ref sig .tc := ⟨.hbm, 160, rfl⟩
abbrev main_cst_30 : Ref sig .tc := ⟨.hbm, 161, rfl⟩
abbrev main_v119 : Ref sig .tc := ⟨.hbm, 162, rfl⟩
abbrev main_cst_31 : Ref sig .tc := ⟨.hbm, 163, rfl⟩
abbrev main_v120 : Ref sig .tc := ⟨.hbm, 164, rfl⟩
abbrev main_cst_32 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_cst_33 : Ref sig .tc := ⟨.hbm, 170, rfl⟩
abbrev main_v125 : Ref sig .tc := ⟨.hbm, 171, rfl⟩

abbrev nD : Nat := 1
abbrev τ : Topo := Topo.v7x

variable {F : FTy → Type} [FloatOps F]

class Facts₀ : Prop where
  reducesTo_S4x4_S4_d1 : S4x4.ReducesTo [1] S4
  h_S_ : 0 < S_.numel
  bcast_S4_S4x1_0 : S4.BroadcastsInDim S4x1 (![0] : Fin 1 → Fin S4x1.rank)
  bcast_S4x1_S4x4_0_1 : S4x1.BroadcastsInDim S4x4 (![0, 1] : Fin 2 → Fin S4x4.rank)
  slices_S4x4_S4x1_0_0 : S4x4.Slices ![0, 0] S4x1
  shapeCasts_S4x1_S4 : S4x1.ShapeCasts S4
  slices_S4x4_S4x1_0_1 : S4x4.Slices ![0, 1] S4x1
  slices_S4x4_S4x1_0_2 : S4x4.Slices ![0, 2] S4x1
  slices_S4x4_S4x1_0_3 : S4x4.Slices ![0, 3] S4x1
  bcast_S_S4 : S_.BroadcastsInDim S4 (![] : Fin 0 → Fin S4.rank)
  concatenates_S4x1_S4x1_S4x1_S4x1_S4x1_S4x1_S4x1_S4x1_S4x1_S4x9_d1 : Shape.Concatenates [S4x1, S4x1, S4x1, S4x1, S4x1, S4x1, S4x1, S4x1, S4x1] S4x9 1
  shapeCasts_S4x9_S4x3x3 : S4x9.ShapeCasts S4x3x3
  concatenates_S4x3x3_S4x3x1_S4x3x4_d2 : Shape.Concatenates [S4x3x3, S4x3x1] S4x3x4 2
  bcast_S1x1x4_S4x1x4_0_1_2 : S1x1x4.BroadcastsInDim S4x1x4 (![0, 1, 2] : Fin 3 → Fin S4x1x4.rank)
  concatenates_S4x3x4_S4x1x4_S4x4x4_d1 : Shape.Concatenates [S4x3x4, S4x1x4] S4x4x4 1
  bcast_S_S4x8192x1 : S_.BroadcastsInDim S4x8192x1 (![] : Fin 0 → Fin S4x8192x1.rank)
  concatenates_S4x8192x3_S4x8192x1_S4x8192x4_d2 : Shape.Concatenates [S4x8192x3, S4x8192x1] S4x8192x4 2
  reducesTo_S4x8192x4_S4x8192_d2 : S4x8192x4.ReducesTo [2] S4x8192
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  transposes_S4x8192x4_S4x4x8192_0_2_1 : S4x8192x4.Transposes [0, 2, 1] S4x4x8192
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192_S4_d1 : S4x8192.ReducesTo [1] S4
  reducesTo_S4x8192x8192_S4x8192_d1 : S4x8192x8192.ReducesTo [1] S4x8192
  reducesTo_S4_S_d0 : S4.ReducesTo [0] S_
  dot_S4x8192x4_S4x4x4_S4x8192x4_2_2_1_1_0_0_wf : DotDims.WF S4x8192x4 S4x4x4 S4x8192x4 [2] [2] [1] [1] [0] [0]
  dot_S4x8192x4_S4x4x8192_S4x8192x8192_2_1_1_2_0_0_wf : DotDims.WF S4x8192x4 S4x4x8192 S4x8192x8192 [2] [1] [1] [2] [0] [0]

variable [Facts₀]

def dot_S4x8192x4_S4x4x4_S4x8192x4_2_2_1_1_0_0 : DotDims S4x8192x4 S4x4x4 S4x8192x4 where
  lhsContracting := [2]
  rhsContracting := [2]
  lhsNonContracting := [1]
  rhsNonContracting := [1]
  lhsBatch := [0]
  rhsBatch := [0]
  wf := dot_S4x8192x4_S4x4x4_S4x8192x4_2_2_1_1_0_0_wf
def dot_S4x8192x4_S4x4x8192_S4x8192x8192_2_1_1_2_0_0 : DotDims S4x8192x4 S4x4x8192 S4x8192x8192 where
  lhsContracting := [2]
  rhsContracting := [1]
  lhsNonContracting := [1]
  rhsNonContracting := [2]
  lhsBatch := [0]
  rhsBatch := [0]
  wf := dot_S4x8192x4_S4x4x8192_S4x8192x8192_2_1_1_2_0_0_wf

class Facts : Prop extends Facts₀ where

variable [Facts]
-- ==== Proof.KI.FrameKit.lean ====
import proofs.«129703_j21474836480057_1_alg».proof.Proof.Gen.KernelIdeal.Launch
import proofs.«129703_j21474836480057_1_alg».proof.Proof.Gen.KernelIdeal.Skeleton
import proofs.«129703_j21474836480057_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V0 (c : Dev nD) : Valuation τ sig (Elt F) := StableHlo.after (List.flatten [hostOps0, hostOps0_1, hostOps0_2]) (fun b => m (c, b))

abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; rfl
theorem hostOps0_1_fresh : (hostOps0_1 : List (HloOp τ sig (Elt F))).Forall fun op => op.fresh = ∅ := by
  simp only [List.Forall]; repeat' constructor
set_option maxHeartbeats 4000000 in
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    ⟨hostOps0_sub, hostOps0_1_sub, hostOps0_2_sub⟩ ⟨hostOps0_fresh, hostOps0_1_fresh, hostOps0_2_fresh⟩ main_chain

theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)

theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.TRef.nullary, StableHlo.TRef.unary, StableHlo.TRef.binary, Finset.mem_singleton] <;> exact StableHlo.devRef_ne_of_ne (by decide)

set_option maxHeartbeats 4000000 in

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.nullary, StableHlo.TRef.unary, StableHlo.TRef.binary, Finset.mem_singleton]
    repeat' apply And.intro
    all_goals exact StableHlo.devRef_ne_of_ne (by decide)))
set_option maxHeartbeats 4000000 in

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.nullary, StableHlo.TRef.unary, StableHlo.TRef.binary, Finset.mem_singleton]
    repeat' apply And.intro
    all_goals exact StableHlo.devRef_ne_of_ne (by decide)))
set_option maxHeartbeats 4000000 in

theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.nullary, StableHlo.TRef.unary, StableHlo.TRef.binary, Finset.mem_singleton]
    repeat' apply And.intro
    all_goals exact StableHlo.devRef_ne_of_ne (by decide)))
set_option maxHeartbeats 4000000 in

theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.nullary, StableHlo.TRef.unary, StableHlo.TRef.binary, Finset.mem_singleton]
    repeat' apply And.intro
    all_goals exact StableHlo.devRef_ne_of_ne (by decide)))
set_option maxHeartbeats 4000000 in

theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.nullary, StableHlo.TRef.unary, StableHlo.TRef.binary, Finset.mem_singleton]
    repeat' apply And.intro
    all_goals exact StableHlo.devRef_ne_of_ne (by decide)))

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

abbrev cond0_1 (i : grid0.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1
theorem hcond0_1 : ∀ t : Fin cfg0.N, cond0_1 (grid0.coords t) ↔ t.val % 64 = 0 :=
  (by decide +kernel : ∀ t : Fin grid0.N, cond0_1 (grid0.coords t) ↔ t.val % 64 = 0)

abbrev cond0_2 (i : grid0.Coords) : Prop := (Scalar.cmpi .ne (Scalar.extui (Scalar.cmpi .eq (BitVec.ofNat 32 (i 2).val) 7#32)) 0#32) = 1#1
theorem hcond0_2 : ∀ t : Fin cfg0.N, cond0_2 (grid0.coords t) ↔ t.val % 8 = 7 :=
  (by decide +kernel : ∀ t : Fin grid0.N, cond0_2 (grid0.coords t) ↔ t.val % 8 = 7)

abbrev cond0_3 (i : grid0.Coords) : Prop := k0_cond4 i = 1#1
theorem hcond0_3 : ∀ t : Fin cfg0.N, cond0_3 (grid0.coords t) ↔ 56 ≤ t.val % 64 :=
  (by decide +kernel : ∀ t : Fin grid0.N, cond0_3 (grid0.coords t) ↔ 56 ≤ t.val % 64)

abbrev cond0_4 (i : grid0.Coords) : Prop := k0_cond5 i = 1#1
theorem hcond0_4 : ∀ t : Fin cfg0.N, cond0_4 (grid0.coords t) ↔ t.val % 64 = 63 :=
  (by decide +kernel : ∀ t : Fin grid0.N, cond0_4 (grid0.coords t) ↔ t.val % 64 = 63)

theorem liveAt0_0 : ∀ t : Fin cfg0.N, cfg0.idle 0 (grid0.coords t) = false := by decide +kernel
theorem liveAt0_1 : ∀ t : Fin cfg0.N, cfg0.idle 1 (grid0.coords t) = false := by decide +kernel

theorem idleAt0_2 : ∀ t : Fin cfg0.N, ¬cond0_4 (grid0.coords t) → cfg0.idle 2 (grid0.coords t) = true := by decide +kernel

theorem noFlush0_2 : ∀ t : Fin cfg0.N, ¬cond0_4 (grid0.coords t) → (cfg0.win 2).flush t = false := by decide +kernel

theorem liveAt0_2 : ∀ t : Fin cfg0.N, cond0_4 (grid0.coords t) → cfg0.idle 2 (grid0.coords t) = false := by decide +kernel

abbrev VO0_2 : View sig .tc .vmem S1x8x128 .f32 := (Memref.whole cc0_stg2_0 : Memref sig .tc .vmem S1x8x128 .f32).view
abbrev ms0_0 (t : Fin cfg0.N) : Memref sig .tc .vmem S1x1024x4 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x4 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x8x128 .f32 := win0_2.stage (cfg0.slots t 2)
abbrev hs0_2 (t : Fin cfg0.N) : (ms0_2 t).IsWhole := hstage0_2 ((cfg0.slots t 2).cast nbuf0_2)

abbrev scM0_0 : Memref sig .tc .vmem S1024x1 .f32 := Memref.whole cc0_scratch0
abbrev scM0_1 : Memref sig .tc .vmem S1x8192 .f32 := Memref.whole cc0_scratch1
abbrev scM0_2 : Memref sig .tc .vmem S1x1 .f32 := Memref.whole cc0_scratch2
abbrev scM0_3 : Memref sig .tc .vmem S1x1 .f32 := Memref.whole cc0_scratch3
abbrev VS0_0 : View sig .tc .vmem S1024x1 .f32 := scM0_0.view
abbrev VS0_1 : View sig .tc .vmem S1x8192 .f32 := scM0_1.view
abbrev VS0_2 : View sig .tc .vmem S1x1 .f32 := scM0_2.view
abbrev VS0_3 : View sig .tc .vmem S1x1 .f32 := scM0_3.view

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Gen

end
-- ==== Proof.KI.Blocks.lean ====
import proofs.«129703_j21474836480057_1_alg».proof.Proof.KI.FrameKit
import Idealize.ShloMosaic.Lib.ValueIdx
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

abbrev xblk (c : Dev nD) (t : Fin cfg0.N) : Vec F S1x1024x4 .f32 := iblk m c 0 t

abbrev yblk (c : Dev nD) (t : Fin cfg0.N) : Vec F S1x1024x4 .f32 := iblk m c 1 t

theorem idx_in0 : ∀ t : Fin cfg0.N, win0_0.index t (0 : Fin 3) = t.val / 64 ∧ win0_0.index t (1 : Fin 3) = t.val / 8 % 8
    ∧ win0_0.index t (2 : Fin 3) = 0 :=
  (by decide +kernel : ∀ t : Fin grid0.N, win0_0.index t (0 : Fin 3) = t.val / 64 ∧ win0_0.index t (1 : Fin 3) = t.val / 8 % 8
    ∧ win0_0.index t (2 : Fin 3) = 0)

theorem idx_in1 : ∀ t : Fin cfg0.N, win0_1.index t (0 : Fin 3) = t.val / 64 ∧ win0_1.index t (1 : Fin 3) = t.val % 8
    ∧ win0_1.index t (2 : Fin 3) = 0 :=
  (by decide +kernel : ∀ t : Fin grid0.N, win0_1.index t (0 : Fin 3) = t.val / 64 ∧ win0_1.index t (1 : Fin 3) = t.val % 8
    ∧ win0_1.index t (2 : Fin 3) = 0)

theorem xblk_apply (c : Dev nD) (t : Fin cfg0.N) (r : Fin 1024) (k : Fin 4) :
    xblk m c t (ValueIdx.ix3 (0 : Fin 1) r k)
      = (V m c main_v98 : Vec F S4x8192x4 .f32) (ValueIdx.ix3 (⟨t.val / 64, by have := t.isLt; have hN : cfg0.N = 256 := N_0; omega⟩ : Fin 4)
          (⟨1024 * (t.val / 8 % 8) + r.val, by have := r.isLt; omega⟩ : Fin 8192) k) := by
  obtain ⟨e0, e1, e2⟩ := idx_in0 t
  unfold xblk iblk
  rw [View.read_apply]
  show V m c main_v98 _ = V m c main_v98 _
  congr 1
  funext a
  apply Fin.ext
  match a with
  | ⟨0, _⟩ => show win0_0.index t (0 : Fin 3) * 1 + 1 * 0 = t.val / 64; omega
  | ⟨1, _⟩ => show win0_0.index t (1 : Fin 3) * 1024 + 1 * r.val = 1024 * (t.val / 8 % 8) + r.val; omega
  | ⟨2, _⟩ => show win0_0.index t (2 : Fin 3) * 4 + 1 * k.val = k.val; omega

theorem yblk_apply (c : Dev nD) (t : Fin cfg0.N) (cc : Fin 1024) (k : Fin 4) :
    yblk m c t (ValueIdx.ix3 (0 : Fin 1) cc k)
      = (V m c main_v97 : Vec F S4x8192x4 .f32) (ValueIdx.ix3 (⟨t.val / 64, by have := t.isLt; have hN : cfg0.N = 256 := N_0; omega⟩ : Fin 4)
          (⟨1024 * (t.val % 8) + cc.val, by have := cc.isLt; omega⟩ : Fin 8192) k) := by
  obtain ⟨e0, e1, e2⟩ := idx_in1 t
  unfold yblk iblk
  rw [View.read_apply]
  show V m c main_v97 _ = V m c main_v97 _
  congr 1
  funext a
  apply Fin.ext
  match a with
  | ⟨0, _⟩ => show win0_1.index t (0 : Fin 3) * 1 + 1 * 0 = t.val / 64; omega
  | ⟨1, _⟩ => show win0_1.index t (1 : Fin 3) * 1024 + 1 * cc.val = 1024 * (t.val % 8) + cc.val; omega
  | ⟨2, _⟩ => show win0_1.index t (2 : Fin 3) * 4 + 1 * k.val = k.val; omega

theorem idx_out : ∀ t : Fin cfg0.N, win0_2.index t (0 : Fin 3) = t.val / 64 ∧ win0_2.index t (1 : Fin 3) = 0
    ∧ win0_2.index t (2 : Fin 3) = 0 :=
  (by decide +kernel : ∀ t : Fin grid0.N, win0_2.index t (0 : Fin 3) = t.val / 64 ∧ win0_2.index t (1 : Fin 3) = 0
    ∧ win0_2.index t (2 : Fin 3) = 0)

theorem flush_out : ∀ t : Fin cfg0.N, (cfg0.win 2).flush t = true ↔ t.val % 64 = 63 :=
  (by decide +kernel : ∀ t : Fin grid0.N, (cfg0.win 2).flush t = true ↔ t.val % 64 = 63)

theorem mem_oblk_axes (t : Fin cfg0.N) (i : S4x8x128.Idx) :
    i ∈ ((cfg0.win 2).blk t).view.set ↔ ∀ a : Fin 3, win0_2.index t a * S1x8x128.size a ≤ (i a).val ∧ (i a).val < win0_2.index t a * S1x8x128.size a + S1x8x128.size a := by
  show i ∈ ((View.whole main_v99).slice (win0_2.rect t)).set ↔ _
  rw [View.set_slice_whole, Rect.mem_set_unit]
  exact Iff.rfl

theorem mem_oblk (t : Fin cfg0.N) (i : S4x8x128.Idx) :
    i ∈ ((cfg0.win 2).blk t).view.set ↔ (i 0).val = t.val / 64 := by
  rw [mem_oblk_axes]
  obtain ⟨e0, e1, e2⟩ := idx_out t
  constructor
  · intro h
    have b0 : win0_2.index t (0 : Fin 3) * 1 ≤ (i 0).val ∧ (i 0).val < win0_2.index t (0 : Fin 3) * 1 + 1 := h 0
    omega
  · intro h a
    have h1 : (i 1).val < 8 := (i 1).isLt
    have h2 : (i 2).val < 128 := (i 2).isLt
    match a with
    | ⟨0, _⟩ => show win0_2.index t (0 : Fin 3) * 1 ≤ (i 0).val ∧ (i 0).val < win0_2.index t (0 : Fin 3) * 1 + 1; omega
    | ⟨1, _⟩ => show win0_2.index t (1 : Fin 3) * 8 ≤ (i 1).val ∧ (i 1).val < win0_2.index t (1 : Fin 3) * 8 + 8; omega
    | ⟨2, _⟩ => show win0_2.index t (2 : Fin 3) * 128 ≤ (i 2).val ∧ (i 2).val < win0_2.index t (2 : Fin 3) * 128 + 128; omega

theorem cover_out (i : S4x8x128.Idx) :
    ∃ t : Fin cfg0.N, (cfg0.win 2).flush t = true ∧ i ∈ ((cfg0.win 2).blk t).view.set := by
  have h0 : (i 0).val < 4 := (i 0).isLt
  have hN : cfg0.N = 256 := N_0
  refine ⟨⟨64 * (i 0).val + 63, by omega⟩, (flush_out _).mpr (by show (64 * (i 0).val + 63) % 64 = 63; omega), ?_⟩
  rw [mem_oblk]
  show (i 0).val = (64 * (i 0).val + 63) / 64
  omega

theorem oblk_read_apply (G : Vec F S4x8x128 .f32) (t : Fin cfg0.N) (a : Fin 8) (b : Fin 128) :
    (((cfg0.win 2).blk t).view.read (Elt F) G : Vec F S1x8x128 .f32) (ValueIdx.ix3 (0 : Fin 1) a b)
      = G (ValueIdx.ix3 (⟨t.val / 64, by have := t.isLt; have hN : cfg0.N = 256 := N_0; omega⟩ : Fin 4) a b) := by
  obtain ⟨e0, e1, e2⟩ := idx_out t
  rw [View.read_apply]
  refine congrArg G (funext fun ax => Fin.ext ?_)
  match ax with
  | ⟨0, _⟩ => show win0_2.index t (0 : Fin 3) * 1 + 1 * 0 = t.val / 64; omega
  | ⟨1, _⟩ => show win0_2.index t (1 : Fin 3) * 8 + 1 * a.val = a.val; omega
  | ⟨2, _⟩ => show win0_2.index t (2 : Fin 3) * 128 + 1 * b.val = b.val; omega

end Cert.KernelIdeal.Gen

end
-- ==== Proof.KI.RunA.lean ====
/-
  The chamfer kernel's body at a part's first point (row tile 0, column tile 0): the row minima, the column minima and the two totals are reset, whatever they held; then the tile's minima are taken in.
  Stated as the pieces its stores leave in each buffer it writes, found by running the body on whole memrefs: the two
  input blocks at their contents, the output block at anything, the four scratch buffers at anything;
  a buffer the case does not write is handed back as it was.
-/
import proofs.«129703_j21474836480057_1_alg».proof.Proof.KI.FrameKit

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg3 : Memref sig .tc .vmem S1x1024x4 .f32) (harg3 : arg3.IsWhole) (arg4 : Memref sig .tc .vmem S1x1024x4 .f32) (harg4 : arg4.IsWhole) (arg5 : Memref sig .tc .vmem S1x8x128 .f32) (harg5 : arg5.IsWhole) (arg6 : Memref sig .tc .vmem S1024x1 .f32) (harg6 : arg6.IsWhole) (arg7 : Memref sig .tc .vmem S1x8192 .f32) (harg7 : arg7.IsWhole) (arg8 : Memref sig .tc .vmem S1x1 .f32) (harg8 : arg8.IsWhole) (arg9 : Memref sig .tc .vmem S1x1 .f32) (harg9 : arg9.IsWhole)
    (hc0 : cond0_0 i) (hc1 : cond0_1 i) (hc2 : ¬cond0_2 i) (hc3 : ¬cond0_3 i) (hc4 : ¬cond0_4 i)
    (x0 x1 : Vec F S1x1024x4 .f32) :
    Σ' (LS0 : List (View.Piece (Elt F) S1024x1 .f32)) (LS1 : List (View.Piece (Elt F) S1x8192 .f32)) (LS2 : List (View.Piece (Elt F) S1x1 .f32)), { LS3 : List (View.Piece (Elt F) S1x1 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ (∃ d, owns (c : Thread nD τ) arg5 fullShare d)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)
                ∗ (∃ f, arg8.view.loc (c : Thread nD τ) ↦[arg8.view.set]{fullShare} arg8.view.writes (Elt F) f LS2)
                ∗ (∃ f, arg9.view.loc (c : Thread nD τ) ↦[arg9.view.set]{fullShare} arg9.view.writes (Elt F) f LS3)) -∗ K ⟨⟩))
          ⊢ wp frame (wpE (defs₀ (F := F)) Variants.none c none) E (cc0__chamfer_kernel i arg3 harg3 arg4 harg4 arg5 harg5 arg6 harg6 arg7 harg7 arg8 harg8 arg9 harg9) K } := by
  refine ⟨?_, ?_, ?_, ?_, fun E K => ?run⟩
  case run =>
    simp only [cc0__chamfer_kernel_eq_skeleton]; unfold cc0__chamfer_kernel_skel
    simp only [k0_part1_eq_skeleton]; unfold k0_part1_skel
    unfold owns
    iintro ⟨⟨%f3, %hf3, H0⟩, ⟨%f4, %hf4, H1⟩, H2, ⟨%d6, %f6, -, HS0⟩, ⟨%d7, %f7, -, HS1⟩, ⟨%d8, %f8, -, HS2⟩, ⟨%d9, %f9, -, HS3⟩, Hk⟩
    obtain rfl := harg3.eq_unread hf3; obtain rfl := harg4.eq_unread hf4
    clear hf3 hf4
    sl_exec (disch := first | exact hc0 | exact hc1 | exact hc2 | exact hc3 | exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexact H2
    isplitl [HS0]
    · iexists _; iexact HS0
    isplitl [HS1]
    · iexists _; iexact HS1
    isplitl [HS2]
    · iexists _; iexact HS2
    iexists _; iexact HS3

end Cert.KernelIdeal.Gen

end
-- ==== Proof.KI.RunB.lean ====
/-
  The chamfer kernel's body at a point inside a row tile that is not the last (column tile neither 0 nor 7, row tile not 7): nothing is reset, summed or stored out; the tile's row minima and column minima are taken into the running ones.
  Stated as the pieces its stores leave in each buffer it writes, found by running the body on whole memrefs: the two
  input blocks at their contents, the output block at anything, the four scratch buffers at what the point before left;
  a buffer the case does not write is handed back as it was.
-/
import proofs.«129703_j21474836480057_1_alg».proof.Proof.KI.FrameKit

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg3 : Memref sig .tc .vmem S1x1024x4 .f32) (harg3 : arg3.IsWhole) (arg4 : Memref sig .tc .vmem S1x1024x4 .f32) (harg4 : arg4.IsWhole) (arg5 : Memref sig .tc .vmem S1x8x128 .f32) (harg5 : arg5.IsWhole) (arg6 : Memref sig .tc .vmem S1024x1 .f32) (harg6 : arg6.IsWhole) (arg7 : Memref sig .tc .vmem S1x8192 .f32) (harg7 : arg7.IsWhole) (arg8 : Memref sig .tc .vmem S1x1 .f32) (harg8 : arg8.IsWhole) (arg9 : Memref sig .tc .vmem S1x1 .f32) (harg9 : arg9.IsWhole)
    (hc0 : ¬cond0_0 i) (hc1 : ¬cond0_1 i) (hc2 : ¬cond0_2 i) (hc3 : ¬cond0_3 i) (hc4 : ¬cond0_4 i)
    (x0 x1 : Vec F S1x1024x4 .f32) (xs0 : Vec F S1024x1 .f32) (xs1 : Vec F S1x8192 .f32) (xs2 xs3 : Vec F S1x1 .f32) :
    Σ' (LS0 : List (View.Piece (Elt F) S1024x1 .f32)), { LS1 : List (View.Piece (Elt F) S1x8192 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0 ∗ owns (c : Thread nD τ) arg7 fullShare xs1 ∗ owns (c : Thread nD τ) arg8 fullShare xs2 ∗ owns (c : Thread nD τ) arg9 fullShare xs3
            ∗ (iprop(owns (c : Thread nD τ) arg3 fullShare x0 ∗ owns (c : Thread nD τ) arg4 fullShare x1 ∗ (∃ d, owns (c : Thread nD τ) arg5 fullShare d)
                ∗ (arg6.view.loc (c : Thread nD τ) ↦[arg6.view.set]{fullShare} arg6.view.writes (Elt F) (harg6.unread xs0) LS0)
                ∗ (arg7.view.loc (c : Thread nD τ) ↦[arg7.view.set]{fullShare} arg7.view.writes (Elt F) (harg7.unread xs1) LS1)
                ∗ owns (c : Thread nD τ) arg8 fullShare xs2
                ∗ owns (c : Thread nD τ) arg9 fullShare xs3) -∗ K ⟨⟩))
          ⊢ wp frame (wpE (defs₀ (F := F)) Variants.none c none) E (cc0__chamfer_kernel i arg3 harg3 arg4 harg4 arg5 harg5 arg6 harg6 arg7 harg7 arg8 harg8 arg9 harg9) K } := by
  refine ⟨?_, ?_, fun E K => ?run⟩
  case run =>
    simp only [cc0__chamfer_kernel_eq_skeleton]; unfold cc0__chamfer_kernel_skel
    simp only [k0_part1_eq_skeleton]; unfold k0_part1_skel
    unfold owns
    iintro ⟨⟨%f3, %hf3, H0⟩, ⟨%f4, %hf4, H1⟩, H2, ⟨%f6, %hf6, HS0⟩, ⟨%f7, %hf7, HS1⟩, ⟨%f8, %hf8, HS2⟩, ⟨%f9, %hf9, HS3⟩, Hk⟩
    obtain rfl := harg3.eq_unread hf3; obtain rfl := harg4.eq_unread hf4
    clear hf3 hf4
    obtain rfl := harg6.eq_unread hf6; obtain rfl := harg7.eq_unread hf7; obtain rfl := harg8.eq_unread hf8; obtain rfl := harg9.eq_unread hf9
    clear hf6 hf7 hf8 hf9
    sl_exec (disch := first | exact hc0 | exact hc1 | exact hc2 | exact hc3 | exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexact H2
    isplitl [HS0]
    · iexact HS0
    isplitl [HS1]
    · iexact HS1
    isplitl [HS2]
    · iexists _; isplitr; · ipureintro; exact harg8.read_unread _
      iexact HS2
    iexists _; isplitr; · ipureintro; exact harg9.read_unread _
    iexact HS3

end Cert.KernelIdeal.Gen

end
-- ==== Proof.KI.RunC.lean ====
/-
  The chamfer kernel's body at the last column tile of a row tile that is not the last: after the tile's minima are taken in, the row tile's now complete row minima are summed into the first total.
  Stated as the pieces its stores leave in each buffer it writes, found by running the body on whole memrefs: the two
  input blocks at their contents, the output block at anything, the four scratch buffers at what the point before left;
  a buffer the case does not write is handed back as it was.
-/
import proofs.«129703_j21474836480057_1_alg».proof.Proof.KI.FrameKit

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg3 : Memref sig .tc .vmem S1x1024x4 .f32) (harg3 : arg3.IsWhole) (arg4 : Memref sig .tc .vmem S1x1024x4 .f32) (harg4 : arg4.IsWhole) (arg5 : Memref sig .tc .vmem S1x8x128 .f32) (harg5 : arg5.IsWhole) (arg6 : Memref sig .tc .vmem S1024x1 .f32) (harg6 : arg6.IsWhole) (arg7 : Memref sig .tc .vmem S1x8192 .f32) (harg7 : arg7.IsWhole) (arg8 : Memref sig .tc .vmem S1x1 .f32) (harg8 : arg8.IsWhole) (arg9 : Memref sig .tc .vmem S1x1 .f32) (harg9 : arg9.IsWhole)
    (hc0 : ¬cond0_0 i) (hc1 : ¬cond0_1 i) (hc2 : cond0_2 i) (hc3 : ¬cond0_3 i) (hc4 : ¬cond0_4 i)
    (x0 x1 : Vec F S1x1024x4 .f32) (xs0 : Vec F S1024x1 .f32) (xs1 : Vec F S1x8192 .f32) (xs2 xs3 : Vec F S1x1 .f32) :
    Σ' (LS0 : List (View.Piece (Elt F) S1024x1 .f32)) (LS1 : List (View.Piece (Elt F) S1x8192 .f32)), { LS2 : List (View.Piece (Elt F) S1x1 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0 ∗ owns (c : Thread nD τ) arg7 fullShare xs1 ∗ owns (c : Thread nD τ) arg8 fullShare xs2 ∗ owns (c : Thread nD τ) arg9 fullShare xs3
            ∗ (iprop(owns (c : Thread nD τ) arg3 fullShare x0 ∗ owns (c : Thread nD τ) arg4 fullShare x1 ∗ (∃ d, owns (c : Thread nD τ) arg5 fullShare d)
                ∗ (arg6.view.loc (c : Thread nD τ) ↦[arg6.view.set]{fullShare} arg6.view.writes (Elt F) (harg6.unread xs0) LS0)
                ∗ (arg7.view.loc (c : Thread nD τ) ↦[arg7.view.set]{fullShare} arg7.view.writes (Elt F) (harg7.unread xs1) LS1)
                ∗ (arg8.view.loc (c : Thread nD τ) ↦[arg8.view.set]{fullShare} arg8.view.writes (Elt F) (harg8.unread xs2) LS2)
                ∗ owns (c : Thread nD τ) arg9 fullShare xs3) -∗ K ⟨⟩))
          ⊢ wp frame (wpE (defs₀ (F := F)) Variants.none c none) E (cc0__chamfer_kernel i arg3 harg3 arg4 harg4 arg5 harg5 arg6 harg6 arg7 harg7 arg8 harg8 arg9 harg9) K } := by
  refine ⟨?_, ?_, ?_, fun E K => ?run⟩
  case run =>
    simp only [cc0__chamfer_kernel_eq_skeleton]; unfold cc0__chamfer_kernel_skel
    simp only [k0_part1_eq_skeleton]; unfold k0_part1_skel
    unfold owns
    iintro ⟨⟨%f3, %hf3, H0⟩, ⟨%f4, %hf4, H1⟩, H2, ⟨%f6, %hf6, HS0⟩, ⟨%f7, %hf7, HS1⟩, ⟨%f8, %hf8, HS2⟩, ⟨%f9, %hf9, HS3⟩, Hk⟩
    obtain rfl := harg3.eq_unread hf3; obtain rfl := harg4.eq_unread hf4
    clear hf3 hf4
    obtain rfl := harg6.eq_unread hf6; obtain rfl := harg7.eq_unread hf7; obtain rfl := harg8.eq_unread hf8; obtain rfl := harg9.eq_unread hf9
    clear hf6 hf7 hf8 hf9
    sl_exec (disch := first | exact hc0 | exact hc1 | exact hc2 | exact hc3 | exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexact H2
    isplitl [HS0]
    · iexact HS0
    isplitl [HS1]
    · iexact HS1
    isplitl [HS2]
    · iexact HS2
    iexists _; isplitr; · ipureintro; exact harg9.read_unread _
    iexact HS3

end Cert.KernelIdeal.Gen

end
-- ==== Proof.KI.RunD.lean ====
/-
  The chamfer kernel's body at the first column tile of a row tile that is neither the first nor the last: the row minima are reset, then the tile's minima are taken in.
  Stated as the pieces its stores leave in each buffer it writes, found by running the body on whole memrefs: the two
  input blocks at their contents, the output block at anything, the four scratch buffers at what the point before left;
  a buffer the case does not write is handed back as it was.
-/
import proofs.«129703_j21474836480057_1_alg».proof.Proof.KI.FrameKit

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_D (c : Dev nD) (i : grid0.Coords) (arg3 : Memref sig .tc .vmem S1x1024x4 .f32) (harg3 : arg3.IsWhole) (arg4 : Memref sig .tc .vmem S1x1024x4 .f32) (harg4 : arg4.IsWhole) (arg5 : Memref sig .tc .vmem S1x8x128 .f32) (harg5 : arg5.IsWhole) (arg6 : Memref sig .tc .vmem S1024x1 .f32) (harg6 : arg6.IsWhole) (arg7 : Memref sig .tc .vmem S1x8192 .f32) (harg7 : arg7.IsWhole) (arg8 : Memref sig .tc .vmem S1x1 .f32) (harg8 : arg8.IsWhole) (arg9 : Memref sig .tc .vmem S1x1 .f32) (harg9 : arg9.IsWhole)
    (hc0 : cond0_0 i) (hc1 : ¬cond0_1 i) (hc2 : ¬cond0_2 i) (hc3 : ¬cond0_3 i) (hc4 : ¬cond0_4 i)
    (x0 x1 : Vec F S1x1024x4 .f32) (xs0 : Vec F S1024x1 .f32) (xs1 : Vec F S1x8192 .f32) (xs2 xs3 : Vec F S1x1 .f32) :
    Σ' (LS0 : List (View.Piece (Elt F) S1024x1 .f32)), { LS1 : List (View.Piece (Elt F) S1x8192 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0 ∗ owns (c : Thread nD τ) arg7 fullShare xs1 ∗ owns (c : Thread nD τ) arg8 fullShare xs2 ∗ owns (c : Thread nD τ) arg9 fullShare xs3
            ∗ (iprop(owns (c : Thread nD τ) arg3 fullShare x0 ∗ owns (c : Thread nD τ) arg4 fullShare x1 ∗ (∃ d, owns (c : Thread nD τ) arg5 fullShare d)
                ∗ (arg6.view.loc (c : Thread nD τ) ↦[arg6.view.set]{fullShare} arg6.view.writes (Elt F) (harg6.unread xs0) LS0)
                ∗ (arg7.view.loc (c : Thread nD τ) ↦[arg7.view.set]{fullShare} arg7.view.writes (Elt F) (harg7.unread xs1) LS1)
                ∗ owns (c : Thread nD τ) arg8 fullShare xs2
                ∗ owns (c : Thread nD τ) arg9 fullShare xs3) -∗ K ⟨⟩))
          ⊢ wp frame (wpE (defs₀ (F := F)) Variants.none c none) E (cc0__chamfer_kernel i arg3 harg3 arg4 harg4 arg5 harg5 arg6 harg6 arg7 harg7 arg8 harg8 arg9 harg9) K } := by
  refine ⟨?_, ?_, fun E K => ?run⟩
  case run =>
    simp only [cc0__chamfer_kernel_eq_skeleton]; unfold cc0__chamfer_kernel_skel
    simp only [k0_part1_eq_skeleton]; unfold k0_part1_skel
    unfold owns
    iintro ⟨⟨%f3, %hf3, H0⟩, ⟨%f4, %hf4, H1⟩, H2, ⟨%f6, %hf6, HS0⟩, ⟨%f7, %hf7, HS1⟩, ⟨%f8, %hf8, HS2⟩, ⟨%f9, %hf9, HS3⟩, Hk⟩
    obtain rfl := harg3.eq_unread hf3; obtain rfl := harg4.eq_unread hf4
    clear hf3 hf4
    obtain rfl := harg6.eq_unread hf6; obtain rfl := harg7.eq_unread hf7; obtain rfl := harg8.eq_unread hf8; obtain rfl := harg9.eq_unread hf9
    clear hf6 hf7 hf8 hf9
    sl_exec (disch := first | exact hc0 | exact hc1 | exact hc2 | exact hc3 | exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexact H2
    isplitl [HS0]
    · iexact HS0
    isplitl [HS1]
    · iexact HS1
    isplitl [HS2]
    · iexists _; isplitr; · ipureintro; exact harg8.read_unread _
      iexact HS2
    iexists _; isplitr; · ipureintro; exact harg9.read_unread _
    iexact HS3

end Cert.KernelIdeal.Gen

end
-- ==== Proof.KI.RunE.lean ====
/-
  The chamfer kernel's body at the first column tile of the last row tile: the row minima are reset, the tile's minima are taken in, and this column tile's now complete column minima are summed into the second total.
  Stated as the pieces its stores leave in each buffer it writes, found by running the body on whole memrefs: the two
  input blocks at their contents, the output block at anything, the four scratch buffers at what the point before left;
  a buffer the case does not write is handed back as it was.
-/
import proofs.«129703_j21474836480057_1_alg».proof.Proof.KI.FrameKit

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_E (c : Dev nD) (i : grid0.Coords) (arg3 : Memref sig .tc .vmem S1x1024x4 .f32) (harg3 : arg3.IsWhole) (arg4 : Memref sig .tc .vmem S1x1024x4 .f32) (harg4 : arg4.IsWhole) (arg5 : Memref sig .tc .vmem S1x8x128 .f32) (harg5 : arg5.IsWhole) (arg6 : Memref sig .tc .vmem S1024x1 .f32) (harg6 : arg6.IsWhole) (arg7 : Memref sig .tc .vmem S1x8192 .f32) (harg7 : arg7.IsWhole) (arg8 : Memref sig .tc .vmem S1x1 .f32) (harg8 : arg8.IsWhole) (arg9 : Memref sig .tc .vmem S1x1 .f32) (harg9 : arg9.IsWhole)
    (hc0 : cond0_0 i) (hc1 : ¬cond0_1 i) (hc2 : ¬cond0_2 i) (hc3 : cond0_3 i) (hc4 : ¬cond0_4 i)
    (x0 x1 : Vec F S1x1024x4 .f32) (xs0 : Vec F S1024x1 .f32) (xs1 : Vec F S1x8192 .f32) (xs2 xs3 : Vec F S1x1 .f32) :
    Σ' (LS0 : List (View.Piece (Elt F) S1024x1 .f32)) (LS1 : List (View.Piece (Elt F) S1x8192 .f32)), { LS3 : List (View.Piece (Elt F) S1x1 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0 ∗ owns (c : Thread nD τ) arg7 fullShare xs1 ∗ owns (c : Thread nD τ) arg8 fullShare xs2 ∗ owns (c : Thread nD τ) arg9 fullShare xs3
            ∗ (iprop(owns (c : Thread nD τ) arg3 fullShare x0 ∗ owns (c : Thread nD τ) arg4 fullShare x1 ∗ (∃ d, owns (c : Thread nD τ) arg5 fullShare d)
                ∗ (arg6.view.loc (c : Thread nD τ) ↦[arg6.view.set]{fullShare} arg6.view.writes (Elt F) (harg6.unread xs0) LS0)
                ∗ (arg7.view.loc (c : Thread nD τ) ↦[arg7.view.set]{fullShare} arg7.view.writes (Elt F) (harg7.unread xs1) LS1)
                ∗ owns (c : Thread nD τ) arg8 fullShare xs2
                ∗ (arg9.view.loc (c : Thread nD τ) ↦[arg9.view.set]{fullShare} arg9.view.writes (Elt F) (harg9.unread xs3) LS3)) -∗ K ⟨⟩))
          ⊢ wp frame (wpE (defs₀ (F := F)) Variants.none c none) E (cc0__chamfer_kernel i arg3 harg3 arg4 harg4 arg5 harg5 arg6 harg6 arg7 harg7 arg8 harg8 arg9 harg9) K } := by
  refine ⟨?_, ?_, ?_, fun E K => ?run⟩
  case run =>
    simp only [cc0__chamfer_kernel_eq_skeleton]; unfold cc0__chamfer_kernel_skel
    simp only [k0_part1_eq_skeleton]; unfold k0_part1_skel
    unfold owns
    iintro ⟨⟨%f3, %hf3, H0⟩, ⟨%f4, %hf4, H1⟩, H2, ⟨%f6, %hf6, HS0⟩, ⟨%f7, %hf7, HS1⟩, ⟨%f8, %hf8, HS2⟩, ⟨%f9, %hf9, HS3⟩, Hk⟩
    obtain rfl := harg3.eq_unread hf3; obtain rfl := harg4.eq_unread hf4
    clear hf3 hf4
    obtain rfl := harg6.eq_unread hf6; obtain rfl := harg7.eq_unread hf7; obtain rfl := harg8.eq_unread hf8; obtain rfl := harg9.eq_unread hf9
    clear hf6 hf7 hf8 hf9
    sl_exec (disch := first | exact hc0 | exact hc1 | exact hc2 | exact hc3 | exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexact H2
    isplitl [HS0]
    · iexact HS0
    isplitl [HS1]
    · iexact HS1
    isplitl [HS2]
    · iexists _; isplitr; · ipureintro; exact harg8.read_unread _
      iexact HS2
    iexact HS3

end Cert.KernelIdeal.Gen

end
-- ==== Proof.KI.RunF.lean ====
/-
  The chamfer kernel's body at an inner column tile of the last row tile: the tile's minima are taken in and this column tile's now complete column minima are summed into the second total.
  Stated as the pieces its stores leave in each buffer it writes, found by running the body on whole memrefs: the two
  input blocks at their contents, the output block at anything, the four scratch buffers at what the point before left;
  a buffer the case does not write is handed back as it was.
-/
import proofs.«129703_j21474836480057_1_alg».proof.Proof.KI.FrameKit

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_F (c : Dev nD) (i : grid0.Coords) (arg3 : Memref sig .tc .vmem S1x1024x4 .f32) (harg3 : arg3.IsWhole) (arg4 : Memref sig .tc .vmem S1x1024x4 .f32) (harg4 : arg4.IsWhole) (arg5 : Memref sig .tc .vmem S1x8x128 .f32) (harg5 : arg5.IsWhole) (arg6 : Memref sig .tc .vmem S1024x1 .f32) (harg6 : arg6.IsWhole) (arg7 : Memref sig .tc .vmem S1x8192 .f32) (harg7 : arg7.IsWhole) (arg8 : Memref sig .tc .vmem S1x1 .f32) (harg8 : arg8.IsWhole) (arg9 : Memref sig .tc .vmem S1x1 .f32) (harg9 : arg9.IsWhole)
    (hc0 : ¬cond0_0 i) (hc1 : ¬cond0_1 i) (hc2 : ¬cond0_2 i) (hc3 : cond0_3 i) (hc4 : ¬cond0_4 i)
    (x0 x1 : Vec F S1x1024x4 .f32) (xs0 : Vec F S1024x1 .f32) (xs1 : Vec F S1x8192 .f32) (xs2 xs3 : Vec F S1x1 .f32) :
    Σ' (LS0 : List (View.Piece (Elt F) S1024x1 .f32)) (LS1 : List (View.Piece (Elt F) S1x8192 .f32)), { LS3 : List (View.Piece (Elt F) S1x1 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0 ∗ owns (c : Thread nD τ) arg7 fullShare xs1 ∗ owns (c : Thread nD τ) arg8 fullShare xs2 ∗ owns (c : Thread nD τ) arg9 fullShare xs3
            ∗ (iprop(owns (c : Thread nD τ) arg3 fullShare x0 ∗ owns (c : Thread nD τ) arg4 fullShare x1 ∗ (∃ d, owns (c : Thread nD τ) arg5 fullShare d)
                ∗ (arg6.view.loc (c : Thread nD τ) ↦[arg6.view.set]{fullShare} arg6.view.writes (Elt F) (harg6.unread xs0) LS0)
                ∗ (arg7.view.loc (c : Thread nD τ) ↦[arg7.view.set]{fullShare} arg7.view.writes (Elt F) (harg7.unread xs1) LS1)
                ∗ owns (c : Thread nD τ) arg8 fullShare xs2
                ∗ (arg9.view.loc (c : Thread nD τ) ↦[arg9.view.set]{fullShare} arg9.view.writes (Elt F) (harg9.unread xs3) LS3)) -∗ K ⟨⟩))
          ⊢ wp frame (wpE (defs₀ (F := F)) Variants.none c none) E (cc0__chamfer_kernel i arg3 harg3 arg4 harg4 arg5 harg5 arg6 harg6 arg7 harg7 arg8 harg8 arg9 harg9) K } := by
  refine ⟨?_, ?_, ?_, fun E K => ?run⟩
  case run =>
    simp only [cc0__chamfer_kernel_eq_skeleton]; unfold cc0__chamfer_kernel_skel
    simp only [k0_part1_eq_skeleton]; unfold k0_part1_skel
    unfold owns
    iintro ⟨⟨%f3, %hf3, H0⟩, ⟨%f4, %hf4, H1⟩, H2, ⟨%f6, %hf6, HS0⟩, ⟨%f7, %hf7, HS1⟩, ⟨%f8, %hf8, HS2⟩, ⟨%f9, %hf9, HS3⟩, Hk⟩
    obtain rfl := harg3.eq_unread hf3; obtain rfl := harg4.eq_unread hf4
    clear hf3 hf4
    obtain rfl := harg6.eq_unread hf6; obtain rfl := harg7.eq_unread hf7; obtain rfl := harg8.eq_unread hf8; obtain rfl := harg9.eq_unread hf9
    clear hf6 hf7 hf8 hf9
    sl_exec (disch := first | exact hc0 | exact hc1 | exact hc2 | exact hc3 | exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexact H2
    isplitl [HS0]
    · iexact HS0
    isplitl [HS1]
    · iexact HS1
    isplitl [HS2]
    · iexists _; isplitr; · ipureintro; exact harg8.read_unread _
      iexact HS2
    iexact HS3

end Cert.KernelIdeal.Gen

end
-- ==== Proof.KI.RunG.lean ====
/-
  The chamfer kernel's body at a part's last point (row tile 7, column tile 7): the tile's minima are taken in, the last row tile's row minima and the last column tile's column minima are summed into the two totals, and the part's value, the two totals each divided by 8192 and added, is stored into the whole output block.
  Stated as the pieces its stores leave in each buffer it writes, found by running the body on whole memrefs: the two
  input blocks at their contents, the output block at anything, the four scratch buffers at what the point before left;
  a buffer the case does not write is handed back as it was.
-/
import proofs.«129703_j21474836480057_1_alg».proof.Proof.KI.FrameKit

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_G (c : Dev nD) (i : grid0.Coords) (arg3 : Memref sig .tc .vmem S1x1024x4 .f32) (harg3 : arg3.IsWhole) (arg4 : Memref sig .tc .vmem S1x1024x4 .f32) (harg4 : arg4.IsWhole) (arg5 : Memref sig .tc .vmem S1x8x128 .f32) (harg5 : arg5.IsWhole) (arg6 : Memref sig .tc .vmem S1024x1 .f32) (harg6 : arg6.IsWhole) (arg7 : Memref sig .tc .vmem S1x8192 .f32) (harg7 : arg7.IsWhole) (arg8 : Memref sig .tc .vmem S1x1 .f32) (harg8 : arg8.IsWhole) (arg9 : Memref sig .tc .vmem S1x1 .f32) (harg9 : arg9.IsWhole)
    (hc0 : ¬cond0_0 i) (hc1 : ¬cond0_1 i) (hc2 : cond0_2 i) (hc3 : cond0_3 i) (hc4 : cond0_4 i)
    (x0 x1 : Vec F S1x1024x4 .f32) (xs0 : Vec F S1024x1 .f32) (xs1 : Vec F S1x8192 .f32) (xs2 xs3 : Vec F S1x1 .f32) :
    Σ' (L2 : List (View.Piece (Elt F) S1x8x128 .f32)) (LS0 : List (View.Piece (Elt F) S1024x1 .f32)) (LS1 : List (View.Piece (Elt F) S1x8192 .f32)) (LS2 : List (View.Piece (Elt F) S1x1 .f32)), { LS3 : List (View.Piece (Elt F) S1x1 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0 ∗ owns (c : Thread nD τ) arg7 fullShare xs1 ∗ owns (c : Thread nD τ) arg8 fullShare xs2 ∗ owns (c : Thread nD τ) arg9 fullShare xs3
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2)
                ∗ (arg6.view.loc (c : Thread nD τ) ↦[arg6.view.set]{fullShare} arg6.view.writes (Elt F) (harg6.unread xs0) LS0)
                ∗ (arg7.view.loc (c : Thread nD τ) ↦[arg7.view.set]{fullShare} arg7.view.writes (Elt F) (harg7.unread xs1) LS1)
                ∗ (arg8.view.loc (c : Thread nD τ) ↦[arg8.view.set]{fullShare} arg8.view.writes (Elt F) (harg8.unread xs2) LS2)
                ∗ (arg9.view.loc (c : Thread nD τ) ↦[arg9.view.set]{fullShare} arg9.view.writes (Elt F) (harg9.unread xs3) LS3)) -∗ K ⟨⟩))
          ⊢ wp frame (wpE (defs₀ (F := F)) Variants.none c none) E (cc0__chamfer_kernel i arg3 harg3 arg4 harg4 arg5 harg5 arg6 harg6 arg7 harg7 arg8 harg8 arg9 harg9) K } := by
  refine ⟨?_, ?_, ?_, ?_, ?_, fun E K => ?run⟩
  case run =>
    simp only [cc0__chamfer_kernel_eq_skeleton]; unfold cc0__chamfer_kernel_skel
    simp only [k0_part1_eq_skeleton]; unfold k0_part1_skel
    unfold owns
    iintro ⟨⟨%f3, %hf3, H0⟩, ⟨%f4, %hf4, H1⟩, ⟨%d2, %f2, -, H2⟩, ⟨%f6, %hf6, HS0⟩, ⟨%f7, %hf7, HS1⟩, ⟨%f8, %hf8, HS2⟩, ⟨%f9, %hf9, HS3⟩, Hk⟩
    obtain rfl := harg3.eq_unread hf3; obtain rfl := harg4.eq_unread hf4
    clear hf3 hf4
    obtain rfl := harg6.eq_unread hf6; obtain rfl := harg7.eq_unread hf7; obtain rfl := harg8.eq_unread hf8; obtain rfl := harg9.eq_unread hf9
    clear hf6 hf7 hf8 hf9
    sl_exec (disch := first | exact hc0 | exact hc1 | exact hc2 | exact hc3 | exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    isplitl [HS0]
    · iexact HS0
    isplitl [HS1]
    · iexact HS1
    isplitl [HS2]
    · iexact HS2
    iexact HS3

end Cert.KernelIdeal.Gen

end
-- ==== Proof.KI.Outs.lean ====
import proofs.«129703_j21474836480057_1_alg».proof.Proof.KI.Blocks
import proofs.«129703_j21474836480057_1_alg».proof.Proof.KI.RunA
import proofs.«129703_j21474836480057_1_alg».proof.Proof.KI.RunB
import proofs.«129703_j21474836480057_1_alg».proof.Proof.KI.RunC
import proofs.«129703_j21474836480057_1_alg».proof.Proof.KI.RunD
import proofs.«129703_j21474836480057_1_alg».proof.Proof.KI.RunE
import proofs.«129703_j21474836480057_1_alg».proof.Proof.KI.RunF
import proofs.«129703_j21474836480057_1_alg».proof.Proof.KI.RunG

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The output block, the row minima, the column minima, the total of row minima, the total of column minima.
abbrev St (F : FTy → Type) [FloatOps F] : Type :=
  Vec F S1x8x128 .f32 × Vec F S1024x1 .f32 × Vec F S1x8192 .f32 × Vec F S1x1 .f32 × Vec F S1x1 .f32

theorem mk_c0 (t : Fin cfg0.N) (h : t.val % 8 = 0) : cond0_0 (grid0.coords t) := (hcond0_0 t).mpr h
theorem mk_n0 (t : Fin cfg0.N) (h : ¬t.val % 8 = 0) : ¬cond0_0 (grid0.coords t) := fun hc => h ((hcond0_0 t).mp hc)
theorem mk_c1 (t : Fin cfg0.N) (h : t.val % 64 = 0) : cond0_1 (grid0.coords t) := (hcond0_1 t).mpr h
theorem mk_n1 (t : Fin cfg0.N) (h : ¬t.val % 64 = 0) : ¬cond0_1 (grid0.coords t) := fun hc => h ((hcond0_1 t).mp hc)
theorem mk_c2 (t : Fin cfg0.N) (h : t.val % 8 = 7) : cond0_2 (grid0.coords t) := (hcond0_2 t).mpr h
theorem mk_n2 (t : Fin cfg0.N) (h : ¬t.val % 8 = 7) : ¬cond0_2 (grid0.coords t) := fun hc => h ((hcond0_2 t).mp hc)
theorem mk_c3 (t : Fin cfg0.N) (h : 56 ≤ t.val % 64) : cond0_3 (grid0.coords t) := (hcond0_3 t).mpr h
theorem mk_n3 (t : Fin cfg0.N) (h : ¬56 ≤ t.val % 64) : ¬cond0_3 (grid0.coords t) := fun hc => h ((hcond0_3 t).mp hc)
theorem mk_c4 (t : Fin cfg0.N) (h : t.val % 64 = 63) : cond0_4 (grid0.coords t) := (hcond0_4 t).mpr h
theorem mk_n4 (t : Fin cfg0.N) (h : ¬t.val % 64 = 63) : ¬cond0_4 (grid0.coords t) := fun hc => h ((hcond0_4 t).mp hc)

abbrev hS0 : scM0_0.IsWhole := Memref.isWhole_whole _
abbrev hS1 : scM0_1.IsWhole := Memref.isWhole_whole _
abbrev hS2 : scM0_2.IsWhole := Memref.isWhole_whole _
abbrev hS3 : scM0_3.IsWhole := Memref.isWhole_whole _

variable (m : (ℓ : Loc nD τ sig) → Buf (Elt F) ℓ)

section AtPoint

variable (c : Dev nD) (t : Fin cfg0.N)

-- Each case's run at grid point `t`, on its two blocks and on what the point before left.
abbrev runA (h64 : t.val % 64 = 0) :=
  kernelRun0_A c (grid0.coords t) (ms0_0 t) (hs0_0 t) (ms0_1 t) (hs0_1 t) (ms0_2 t) (hs0_2 t) scM0_0 hS0 scM0_1 hS1 scM0_2 hS2 scM0_3 hS3
    (mk_c0 t (by omega)) (mk_c1 t h64) (mk_n2 t (by omega)) (mk_n3 t (by omega)) (mk_n4 t (by omega)) (xblk m c t) (yblk m c t)
abbrev runB (h64 : ¬t.val % 64 = 0) (h0 : ¬t.val % 8 = 0) (h7 : ¬t.val % 8 = 7) (h3 : ¬56 ≤ t.val % 64) (s : St F) :=
  kernelRun0_B c (grid0.coords t) (ms0_0 t) (hs0_0 t) (ms0_1 t) (hs0_1 t) (ms0_2 t) (hs0_2 t) scM0_0 hS0 scM0_1 hS1 scM0_2 hS2 scM0_3 hS3
    (mk_n0 t h0) (mk_n1 t h64) (mk_n2 t h7) (mk_n3 t h3) (mk_n4 t (by omega)) (xblk m c t) (yblk m c t) s.2.1 s.2.2.1 s.2.2.2.1 s.2.2.2.2
abbrev runC (h64 : ¬t.val % 64 = 0) (h0 : ¬t.val % 8 = 0) (h7 : t.val % 8 = 7) (h3 : ¬56 ≤ t.val % 64) (s : St F) :=
  kernelRun0_C c (grid0.coords t) (ms0_0 t) (hs0_0 t) (ms0_1 t) (hs0_1 t) (ms0_2 t) (hs0_2 t) scM0_0 hS0 scM0_1 hS1 scM0_2 hS2 scM0_3 hS3
    (mk_n0 t h0) (mk_n1 t h64) (mk_c2 t h7) (mk_n3 t h3) (mk_n4 t (by omega)) (xblk m c t) (yblk m c t) s.2.1 s.2.2.1 s.2.2.2.1 s.2.2.2.2
abbrev runD (h64 : ¬t.val % 64 = 0) (h0 : t.val % 8 = 0) (h3 : ¬56 ≤ t.val % 64) (s : St F) :=
  kernelRun0_D c (grid0.coords t) (ms0_0 t) (hs0_0 t) (ms0_1 t) (hs0_1 t) (ms0_2 t) (hs0_2 t) scM0_0 hS0 scM0_1 hS1 scM0_2 hS2 scM0_3 hS3
    (mk_c0 t h0) (mk_n1 t h64) (mk_n2 t (by omega)) (mk_n3 t h3) (mk_n4 t (by omega)) (xblk m c t) (yblk m c t) s.2.1 s.2.2.1 s.2.2.2.1 s.2.2.2.2
abbrev runE (h64 : ¬t.val % 64 = 0) (h0 : t.val % 8 = 0) (h3 : 56 ≤ t.val % 64) (s : St F) :=
  kernelRun0_E c (grid0.coords t) (ms0_0 t) (hs0_0 t) (ms0_1 t) (hs0_1 t) (ms0_2 t) (hs0_2 t) scM0_0 hS0 scM0_1 hS1 scM0_2 hS2 scM0_3 hS3
    (mk_c0 t h0) (mk_n1 t h64) (mk_n2 t (by omega)) (mk_c3 t h3) (mk_n4 t (by omega)) (xblk m c t) (yblk m c t) s.2.1 s.2.2.1 s.2.2.2.1 s.2.2.2.2
abbrev runF (h64 : ¬t.val % 64 = 0) (h0 : ¬t.val % 8 = 0) (h7 : ¬t.val % 8 = 7) (h3 : 56 ≤ t.val % 64) (s : St F) :=
  kernelRun0_F c (grid0.coords t) (ms0_0 t) (hs0_0 t) (ms0_1 t) (hs0_1 t) (ms0_2 t) (hs0_2 t) scM0_0 hS0 scM0_1 hS1 scM0_2 hS2 scM0_3 hS3
    (mk_n0 t h0) (mk_n1 t h64) (mk_n2 t h7) (mk_c3 t h3) (mk_n4 t (by omega)) (xblk m c t) (yblk m c t) s.2.1 s.2.2.1 s.2.2.2.1 s.2.2.2.2
abbrev runG (h64 : ¬t.val % 64 = 0) (h0 : ¬t.val % 8 = 0) (h7 : t.val % 8 = 7) (h3 : 56 ≤ t.val % 64) (s : St F) :=
  kernelRun0_G c (grid0.coords t) (ms0_0 t) (hs0_0 t) (ms0_1 t) (hs0_1 t) (ms0_2 t) (hs0_2 t) scM0_0 hS0 scM0_1 hS1 scM0_2 hS2 scM0_3 hS3
    (mk_n0 t h0) (mk_n1 t h64) (mk_c2 t h7) (mk_c3 t h3) (mk_c4 t (by omega)) (xblk m c t) (yblk m c t) s.2.1 s.2.2.1 s.2.2.2.1 s.2.2.2.2

-- A whole scratch memref's contents after the stores `L` over contents `x`.
abbrev wr {S : Shape} (M : Memref sig .tc .vmem S .f32) (h : M.IsWhole) (x : Vec F S .f32) (L : List (View.Piece (Elt F) S .f32)) : Vec F S .f32 :=
  M.view.read (Elt F) (M.view.writes (Elt F) (h.unread x) L)

-- The five buffers after the point: a written one its pieces over what it held (over anything at a part's first point).
def stepA (h64 : t.val % 64 = 0) : St F :=
  (VO0_2.read (Elt F) VO0_2.junk,
   VS0_0.read (Elt F) (VS0_0.writes (Elt F) VS0_0.junk (runA m c t h64).1),
   VS0_1.read (Elt F) (VS0_1.writes (Elt F) VS0_1.junk (runA m c t h64).2.1),
   VS0_2.read (Elt F) (VS0_2.writes (Elt F) VS0_2.junk (runA m c t h64).2.2.1),
   VS0_3.read (Elt F) (VS0_3.writes (Elt F) VS0_3.junk (runA m c t h64).2.2.2.1))

def stepB (h64 : ¬t.val % 64 = 0) (h0 : ¬t.val % 8 = 0) (h7 : ¬t.val % 8 = 7) (h3 : ¬56 ≤ t.val % 64) (s : St F) : St F :=
  (VO0_2.read (Elt F) VO0_2.junk, wr scM0_0 hS0 s.2.1 (runB m c t h64 h0 h7 h3 s).1, wr scM0_1 hS1 s.2.2.1 (runB m c t h64 h0 h7 h3 s).2.1,
   s.2.2.2.1, s.2.2.2.2)

def stepC (h64 : ¬t.val % 64 = 0) (h0 : ¬t.val % 8 = 0) (h7 : t.val % 8 = 7) (h3 : ¬56 ≤ t.val % 64) (s : St F) : St F :=
  (VO0_2.read (Elt F) VO0_2.junk, wr scM0_0 hS0 s.2.1 (runC m c t h64 h0 h7 h3 s).1, wr scM0_1 hS1 s.2.2.1 (runC m c t h64 h0 h7 h3 s).2.1,
   wr scM0_2 hS2 s.2.2.2.1 (runC m c t h64 h0 h7 h3 s).2.2.1, s.2.2.2.2)

def stepD (h64 : ¬t.val % 64 = 0) (h0 : t.val % 8 = 0) (h3 : ¬56 ≤ t.val % 64) (s : St F) : St F :=
  (VO0_2.read (Elt F) VO0_2.junk, wr scM0_0 hS0 s.2.1 (runD m c t h64 h0 h3 s).1, wr scM0_1 hS1 s.2.2.1 (runD m c t h64 h0 h3 s).2.1,
   s.2.2.2.1, s.2.2.2.2)

def stepE (h64 : ¬t.val % 64 = 0) (h0 : t.val % 8 = 0) (h3 : 56 ≤ t.val % 64) (s : St F) : St F :=
  (VO0_2.read (Elt F) VO0_2.junk, wr scM0_0 hS0 s.2.1 (runE m c t h64 h0 h3 s).1, wr scM0_1 hS1 s.2.2.1 (runE m c t h64 h0 h3 s).2.1,
   s.2.2.2.1, wr scM0_3 hS3 s.2.2.2.2 (runE m c t h64 h0 h3 s).2.2.1)

def stepF (h64 : ¬t.val % 64 = 0) (h0 : ¬t.val % 8 = 0) (h7 : ¬t.val % 8 = 7) (h3 : 56 ≤ t.val % 64) (s : St F) : St F :=
  (VO0_2.read (Elt F) VO0_2.junk, wr scM0_0 hS0 s.2.1 (runF m c t h64 h0 h7 h3 s).1, wr scM0_1 hS1 s.2.2.1 (runF m c t h64 h0 h7 h3 s).2.1,
   s.2.2.2.1, wr scM0_3 hS3 s.2.2.2.2 (runF m c t h64 h0 h7 h3 s).2.2.1)

def stepG (h64 : ¬t.val % 64 = 0) (h0 : ¬t.val % 8 = 0) (h7 : t.val % 8 = 7) (h3 : 56 ≤ t.val % 64) (s : St F) : St F :=
  (VO0_2.read (Elt F) (VO0_2.writes (Elt F) VO0_2.junk (runG m c t h64 h0 h7 h3 s).1),
   wr scM0_0 hS0 s.2.1 (runG m c t h64 h0 h7 h3 s).2.1, wr scM0_1 hS1 s.2.2.1 (runG m c t h64 h0 h7 h3 s).2.2.1,
   wr scM0_2 hS2 s.2.2.2.1 (runG m c t h64 h0 h7 h3 s).2.2.2.1, wr scM0_3 hS3 s.2.2.2.2 (runG m c t h64 h0 h7 h3 s).2.2.2.2.1)

end AtPoint

-- The contents after every point, by recursion on the point: its position selects the case.
def outsAt0 (c : Dev nD) : (n : ℕ) → n < cfg0.N → St F
  | 0, hn => stepA m c ⟨0, hn⟩ (Nat.zero_mod _)
  | n + 1, hn =>
    if h64 : (n + 1) % 64 = 0 then stepA m c ⟨n + 1, hn⟩ h64
    else if h0 : (n + 1) % 8 = 0 then
      if h3 : 56 ≤ (n + 1) % 64 then stepE m c ⟨n + 1, hn⟩ h64 h0 h3 (outsAt0 c n (Nat.lt_of_succ_lt hn))
      else stepD m c ⟨n + 1, hn⟩ h64 h0 h3 (outsAt0 c n (Nat.lt_of_succ_lt hn))
    else if h7 : (n + 1) % 8 = 7 then
      if h3 : 56 ≤ (n + 1) % 64 then stepG m c ⟨n + 1, hn⟩ h64 h0 h7 h3 (outsAt0 c n (Nat.lt_of_succ_lt hn))
      else stepC m c ⟨n + 1, hn⟩ h64 h0 h7 h3 (outsAt0 c n (Nat.lt_of_succ_lt hn))
    else
      if h3 : 56 ≤ (n + 1) % 64 then stepF m c ⟨n + 1, hn⟩ h64 h0 h7 h3 (outsAt0 c n (Nat.lt_of_succ_lt hn))
      else stepB m c ⟨n + 1, hn⟩ h64 h0 h7 h3 (outsAt0 c n (Nat.lt_of_succ_lt hn))

-- What the point before left.
abbrev prevAt (c : Dev nD) (t : Fin cfg0.N) : St F := outsAt0 m c (t.val - 1) (Nat.lt_of_le_of_lt (Nat.sub_le _ _) t.isLt)

theorem outsAt0_A (c : Dev nD) (t : Fin cfg0.N) (h64 : t.val % 64 = 0) : outsAt0 m c t.val t.isLt = stepA m c t h64 := by
  obtain ⟨n, hn⟩ := t
  cases n with
  | zero => exact rfl
  | succ n => exact (dif_pos h64).trans rfl

theorem outsAt0_E (c : Dev nD) (t : Fin cfg0.N) (h64 : ¬t.val % 64 = 0) (h0 : t.val % 8 = 0) (h3 : 56 ≤ t.val % 64) :
    outsAt0 m c t.val t.isLt = stepE m c t h64 h0 h3 (prevAt m c t) := by
  obtain ⟨n, hn⟩ := t
  cases n with
  | zero => exact absurd (Nat.zero_mod _) h64
  | succ n => exact (dif_neg h64).trans ((dif_pos h0).trans ((dif_pos h3).trans rfl))

theorem outsAt0_D (c : Dev nD) (t : Fin cfg0.N) (h64 : ¬t.val % 64 = 0) (h0 : t.val % 8 = 0) (h3 : ¬56 ≤ t.val % 64) :
    outsAt0 m c t.val t.isLt = stepD m c t h64 h0 h3 (prevAt m c t) := by
  obtain ⟨n, hn⟩ := t
  cases n with
  | zero => exact absurd (Nat.zero_mod _) h64
  | succ n => exact (dif_neg h64).trans ((dif_pos h0).trans ((dif_neg h3).trans rfl))

theorem outsAt0_G (c : Dev nD) (t : Fin cfg0.N) (h64 : ¬t.val % 64 = 0) (h0 : ¬t.val % 8 = 0) (h7 : t.val % 8 = 7) (h3 : 56 ≤ t.val % 64) :
    outsAt0 m c t.val t.isLt = stepG m c t h64 h0 h7 h3 (prevAt m c t) := by
  obtain ⟨n, hn⟩ := t
  cases n with
  | zero => exact absurd (Nat.zero_mod _) h64
  | succ n => exact (dif_neg h64).trans ((dif_neg h0).trans ((dif_pos h7).trans ((dif_pos h3).trans rfl)))

theorem outsAt0_C (c : Dev nD) (t : Fin cfg0.N) (h64 : ¬t.val % 64 = 0) (h0 : ¬t.val % 8 = 0) (h7 : t.val % 8 = 7) (h3 : ¬56 ≤ t.val % 64) :
    outsAt0 m c t.val t.isLt = stepC m c t h64 h0 h7 h3 (prevAt m c t) := by
  obtain ⟨n, hn⟩ := t
  cases n with
  | zero => exact absurd (Nat.zero_mod _) h64
  | succ n => exact (dif_neg h64).trans ((dif_neg h0).trans ((dif_pos h7).trans ((dif_neg h3).trans rfl)))

theorem outsAt0_F (c : Dev nD) (t : Fin cfg0.N) (h64 : ¬t.val % 64 = 0) (h0 : ¬t.val % 8 = 0) (h7 : ¬t.val % 8 = 7) (h3 : 56 ≤ t.val % 64) :
    outsAt0 m c t.val t.isLt = stepF m c t h64 h0 h7 h3 (prevAt m c t) := by
  obtain ⟨n, hn⟩ := t
  cases n with
  | zero => exact absurd (Nat.zero_mod _) h64
  | succ n => exact (dif_neg h64).trans ((dif_neg h0).trans ((dif_neg h7).trans ((dif_pos h3).trans rfl)))

theorem outsAt0_B (c : Dev nD) (t : Fin cfg0.N) (h64 : ¬t.val % 64 = 0) (h0 : ¬t.val % 8 = 0) (h7 : ¬t.val % 8 = 7) (h3 : ¬56 ≤ t.val % 64) :
    outsAt0 m c t.val t.isLt = stepB m c t h64 h0 h7 h3 (prevAt m c t) := by
  obtain ⟨n, hn⟩ := t
  cases n with
  | zero => exact absurd (Nat.zero_mod _) h64
  | succ n => exact (dif_neg h64).trans ((dif_neg h0).trans ((dif_neg h7).trans ((dif_neg h3).trans rfl)))

-- The scratch buffers at the contents `s` names, the generator register at some state.
def ownsSt (c : Dev nD) (s : St F) : sProp 𝕄 :=
  iprop(iprop(owns (c : Thread nD τ) scM0_0 fullShare s.2.1 ∗ owns (c : Thread nD τ) scM0_1 fullShare s.2.2.1 ∗ owns (c : Thread nD τ) scM0_2 fullShare s.2.2.2.1 ∗ owns (c : Thread nD τ) scM0_3 fullShare s.2.2.2.2) ∗ (∃ r, prngReg c r))

-- The region's invariant: before the first point the scratch buffers hold anything, afterwards what the point before left.
def PhiS (c : Dev nD) : (n : ℕ) → n ≤ cfg0.N → sProp 𝕄
  | 0, _ => Pipeline.ΦA spec0 c
  | n + 1, hn => ownsSt c (outsAt0 m c n hn)

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) : PhiS m c n h = ownsSt c (outsAt0 m c (n - 1) (by omega)) := by
  cases n with
  | zero => exact absurd rfl hz
  | succ n => rfl

end Cert.KernelIdeal.Gen

end
-- ==== Proof.KI.Frame.lean ====
import proofs.«129703_j21474836480057_1_alg».proof.Proof.KI.Outs
import Idealize.ShloMosaic.Lib.Pipeline.TableIdle

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- A part's first point overwrites every scratch buffer whole, its last stores the output block whole: the pieces cover.
theorem scoverA_0 (c : Dev nD) (t : Fin cfg0.N) (h64 : t.val % 64 = 0) : ∀ y : S1024x1.Idx, ∃ pc ∈ (runA m c t h64).1, y ∈ pc.1.set :=
  View.cover_of_tiledL (runA m c t h64).1 S1024x1.size (by sl_kernel_rfl)
theorem scoverA_1 (c : Dev nD) (t : Fin cfg0.N) (h64 : t.val % 64 = 0) : ∀ y : S1x8192.Idx, ∃ pc ∈ (runA m c t h64).2.1, y ∈ pc.1.set :=
  View.cover_of_tiledL (runA m c t h64).2.1 S1x8192.size (by sl_kernel_rfl)
theorem scoverA_2 (c : Dev nD) (t : Fin cfg0.N) (h64 : t.val % 64 = 0) : ∀ y : S1x1.Idx, ∃ pc ∈ (runA m c t h64).2.2.1, y ∈ pc.1.set :=
  View.cover_of_tiledL (runA m c t h64).2.2.1 S1x1.size (by sl_kernel_rfl)
theorem scoverA_3 (c : Dev nD) (t : Fin cfg0.N) (h64 : t.val % 64 = 0) : ∀ y : S1x1.Idx, ∃ pc ∈ (runA m c t h64).2.2.2.1, y ∈ pc.1.set :=
  View.cover_of_tiledL (runA m c t h64).2.2.2.1 S1x1.size (by sl_kernel_rfl)
theorem coverG_2 (c : Dev nD) (t : Fin cfg0.N) (h64 : ¬t.val % 64 = 0) (h0 : ¬t.val % 8 = 0) (h7 : t.val % 8 = 7) (h3 : 56 ≤ t.val % 64) (s : St F) :
    ∀ y : S1x8x128.Idx, ∃ pc ∈ (runG m c t h64 h0 h7 h3 s).1, y ∈ pc.1.set :=
  View.cover_of_tiledL (runG m c t h64 h0 h7 h3 s).1 S1x8x128.size (by sl_kernel_rfl)

theorem fresh0_2_step : ∀ t : Fin cfg0.N, (fun _ : ℕ => true) (t.val + 1) = ((cfg0.win 2).flush t || (cfg0.idle 2 (cfg0.grid.coords t) && (fun _ : ℕ => true) t.val)) :=
  (by decide +kernel : ∀ t : Fin grid0.N, true = (win0_2.flush t || (cfg0.idle 2 (grid0.coords t) && true)))

theorem fresh0_2 (n : ℕ) (hn : n ≤ cfg0.N) : cfg0.fresh 2 n = true :=
  Pipeline.Cfg.fresh_tab cfg0 (2 : Fin 3) (fun _ => true) rfl fresh0_2_step n hn

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

theorem before0_2 (c : Dev nD) (t : Fin cfg0.N) (d) : (dats m 0 c).before 2 t d = d := by
  rw [(dats m 0 c).before_out_traj (2 : Fin 3) rfl (fun _ _ => rfl)
    (fun t' _ _ hf => (Bool.false_ne_true (hf.symm.trans (fresh0_2 t'.val (Nat.le_of_lt t'.isLt)))).elim) t.val t rfl d,
    if_pos (fresh0_2 t.val (Nat.le_of_lt t.isLt))]

-- What the body is called with at point `t`, and what it returns.
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

-- Stores that cover a buffer read back the same over anything and through any view.
theorem owns_writes_cover {S : Shape} (c : Dev nD) (M : Memref sig .tc .vmem S .f32) (f : M.view.ty.Contents (Elt F))
    (v : View sig .tc .vmem S .f32) (g : v.ty.Contents (Elt F)) (L : List (View.Piece (Elt F) S .f32)) (hcov : ∀ y : S.Idx, ∃ pc ∈ L, y ∈ pc.1.set) :
    (M.view.loc (c : Thread nD τ) ↦[M.view.set]{fullShare} M.view.writes (Elt F) f L : sProp 𝕄)
      ⊢ owns (c : Thread nD τ) M fullShare (v.read (Elt F) (v.writes (Elt F) g L)) := by
  unfold owns; iintro H; iexists _; isplitr
  swap; · iexact H
  ipureintro; exact View.read_writes_of_cover _ _ _ _ _ hcov

theorem owns_writes {S : Shape} (c : Dev nD) (M : Memref sig .tc .vmem S .f32) (f : M.view.ty.Contents (Elt F))
    (L : List (View.Piece (Elt F) S .f32)) :
    (M.view.loc (c : Thread nD τ) ↦[M.view.set]{fullShare} M.view.writes (Elt F) f L : sProp 𝕄)
      ⊢ owns (c : Thread nD τ) M fullShare (M.view.read (Elt F) (M.view.writes (Elt F) f L)) := by
  unfold owns; iintro H; iexists _; isplitr
  swap; · iexact H
  ipureintro; rfl

-- What the body returns: the invariant at the contents after the point and the two clouds' blocks as they were.
theorem post_eq (c : Dev nD) (t : Fin cfg0.N) : bodyPost m c t = iprop(ownsSt c (outsAt0 m c t.val t.isLt) ∗ (dats m 0 c).owesAt () t.castSucc
    ∗ owns (c : Thread nD τ) (ms0_0 t) fullShare (xblk m c t) ∗ owns (c : Thread nD τ) (ms0_1 t) fullShare (yblk m c t) ∗ (dats m 0 c).leavesExact 2 t) := by
  unfold bodyPost
  rw [show (dats m 0 c).leavesExact 0 t = owns (c : Thread nD τ) (ms0_0 t) fullShare ((dats m 0 c).after 0 t) from by
      unfold Dat.leavesExact; rw [liveAt0_0 t], after0_0,
    show (dats m 0 c).leavesExact 1 t = owns (c : Thread nD τ) (ms0_1 t) fullShare ((dats m 0 c).after 1 t) from by
      unfold Dat.leavesExact; rw [liveAt0_1 t], after0_1]
  rfl

theorem leaves2_idle (c : Dev nD) (t : Fin cfg0.N) (hn4 : ¬t.val % 64 = 63) :
    (dats m 0 c).leavesExact 2 t = iprop(∃ d, owns (c : Thread nD τ) (ms0_2 t) fullShare d) := by
  rw [Dat.leavesExact_idle (dats m 0 c) 2 t (idleAt0_2 t (mk_n4 t hn4)) (noFlush0_2 t (mk_n4 t hn4))]
  simp only [before0_2]
  rfl

theorem leaves2_live (c : Dev nD) (t : Fin cfg0.N) (hc4 : t.val % 64 = 63) :
    (dats m 0 c).leavesExact 2 t = owns (c : Thread nD τ) (ms0_2 t) fullShare (outsAt0 m c t.val t.isLt).1 := by
  rw [show (dats m 0 c).leavesExact 2 t = owns (c : Thread nD τ) (ms0_2 t) fullShare ((dats m 0 c).after 2 t) from by
    unfold Dat.leavesExact; rw [liveAt0_2 t (mk_c4 t hc4)], after0_2]

-- The body at a part's first point: the scratch buffers are taken at anything and come back at their pieces read back.
set_option maxHeartbeats 4000000 in
theorem sound_A_zero (c : Dev nD) (t : Fin cfg0.N) (h64 : t.val % 64 = 0) (hz : t.val = 0) :
    bodyPre m c t ⊢ wp frame (wpE (defs₀ (F := F)) Variants.none c none) Set.univ (bodyAt0 t) (fun _ => bodyPost m c t) := by
  rw [post_eq, leaves2_idle m c t (by omega), outsAt0_A m c t h64]
  unfold bodyPre bodyAt0 stepA ownsSt
  simp only [before0_0, before0_1, before0_2]
  rw [PhiS_castSucc m c t, PhiS_zero m c _ _ hz, PhiA0_eq]
  iintro ⟨⟨⟨HS0, HS1, HS2, HS3⟩, Hg⟩, Ho, ⟨%d0, H0⟩, ⟨%d1, H1⟩, ⟨%d2, H2⟩⟩
  iapply ((runA m c t h64).2.2.2.2 Set.univ _)
  isplitl [H0]; · iexact H0
  isplitl [H1]; · iexact H1
  isplitl [H2]; · iexists _; iexact H2
  isplitl [HS0]; · iexact HS0
  isplitl [HS1]; · iexact HS1
  isplitl [HS2]; · iexact HS2
  isplitl [HS3]; · iexact HS3
  iintro ⟨H0, H1, H2, ⟨%e0, HS0⟩, ⟨%e1, HS1⟩, ⟨%e2, HS2⟩, ⟨%e3, HS3⟩⟩
  isplitl [HS0 HS1 HS2 HS3 Hg]
  · isplitl [HS0 HS1 HS2 HS3]
    · isplitl [HS0]; · iapply (owns_writes_cover c scM0_0 _ VS0_0 _ _ (scoverA_0 m c t h64)); iexact HS0
      isplitl [HS1]; · iapply (owns_writes_cover c scM0_1 _ VS0_1 _ _ (scoverA_1 m c t h64)); iexact HS1
      isplitl [HS2]; · iapply (owns_writes_cover c scM0_2 _ VS0_2 _ _ (scoverA_2 m c t h64)); iexact HS2
      iapply (owns_writes_cover c scM0_3 _ VS0_3 _ _ (scoverA_3 m c t h64)); iexact HS3
    iexact Hg
  isplitl [Ho]; · iexact Ho
  isplitl [H0]; · iexact H0
  isplitl [H1]; · iexact H1
  iexact H2

set_option maxHeartbeats 4000000 in
theorem sound_A_pos (c : Dev nD) (t : Fin cfg0.N) (h64 : t.val % 64 = 0) (hz : t.val ≠ 0) :
    bodyPre m c t ⊢ wp frame (wpE (defs₀ (F := F)) Variants.none c none) Set.univ (bodyAt0 t) (fun _ => bodyPost m c t) := by
  rw [post_eq, leaves2_idle m c t (by omega), outsAt0_A m c t h64]
  unfold bodyPre bodyAt0 stepA ownsSt
  simp only [before0_0, before0_1, before0_2]
  rw [PhiS_castSucc m c t, PhiS_pos m c _ _ hz]
  unfold ownsSt
  iintro ⟨⟨⟨HS0, HS1, HS2, HS3⟩, Hg⟩, Ho, ⟨%d0, H0⟩, ⟨%d1, H1⟩, ⟨%d2, H2⟩⟩
  iapply ((runA m c t h64).2.2.2.2 Set.univ _)
  isplitl [H0]; · iexact H0
  isplitl [H1]; · iexact H1
  isplitl [H2]; · iexists _; iexact H2
  isplitl [HS0]; · iexists _; iexact HS0
  isplitl [HS1]; · iexists _; iexact HS1
  isplitl [HS2]; · iexists _; iexact HS2
  isplitl [HS3]; · iexists _; iexact HS3
  iintro ⟨H0, H1, H2, ⟨%e0, HS0⟩, ⟨%e1, HS1⟩, ⟨%e2, HS2⟩, ⟨%e3, HS3⟩⟩
  isplitl [HS0 HS1 HS2 HS3 Hg]
  · isplitl [HS0 HS1 HS2 HS3]
    · isplitl [HS0]; · iapply (owns_writes_cover c scM0_0 _ VS0_0 _ _ (scoverA_0 m c t h64)); iexact HS0
      isplitl [HS1]; · iapply (owns_writes_cover c scM0_1 _ VS0_1 _ _ (scoverA_1 m c t h64)); iexact HS1
      isplitl [HS2]; · iapply (owns_writes_cover c scM0_2 _ VS0_2 _ _ (scoverA_2 m c t h64)); iexact HS2
      iapply (owns_writes_cover c scM0_3 _ VS0_3 _ _ (scoverA_3 m c t h64)); iexact HS3
    iexact Hg
  isplitl [Ho]; · iexact Ho
  isplitl [H0]; · iexact H0
  isplitl [H1]; · iexact H1
  iexact H2

-- Later points: scratch buffers come in at what the point before left; a written one returns at its pieces over that.
set_option maxHeartbeats 4000000 in
theorem sound_E (c : Dev nD) (t : Fin cfg0.N) (h64 : ¬t.val % 64 = 0) (h0 : t.val % 8 = 0) (h3 : 56 ≤ t.val % 64) :
    bodyPre m c t ⊢ wp frame (wpE (defs₀ (F := F)) Variants.none c none) Set.univ (bodyAt0 t) (fun _ => bodyPost m c t) := by
  have hz : t.val ≠ 0 := fun e => h64 (by rw [e])
  rw [post_eq, leaves2_idle m c t (by omega), outsAt0_E m c t h64 h0 h3]
  unfold bodyPre bodyAt0 stepE ownsSt
  simp only [before0_0, before0_1, before0_2]
  rw [PhiS_castSucc m c t, PhiS_pos m c _ _ hz]
  unfold ownsSt
  iintro ⟨⟨⟨HS0, HS1, HS2, HS3⟩, Hg⟩, Ho, ⟨%d0, H0⟩, ⟨%d1, H1⟩, ⟨%d2, H2⟩⟩
  iapply ((runE m c t h64 h0 h3 (prevAt m c t)).2.2.2 Set.univ _)
  isplitl [H0]; · iexact H0
  isplitl [H1]; · iexact H1
  isplitl [H2]; · iexists _; iexact H2
  isplitl [HS0]; · iexact HS0
  isplitl [HS1]; · iexact HS1
  isplitl [HS2]; · iexact HS2
  isplitl [HS3]; · iexact HS3
  iintro ⟨H0, H1, H2, HS0, HS1, HS2, HS3⟩
  isplitl [HS0 HS1 HS2 HS3 Hg]
  · isplitl [HS0 HS1 HS2 HS3]
    · isplitl [HS0]; · iapply (owns_writes c scM0_0 _ _); iexact HS0
      isplitl [HS1]; · iapply (owns_writes c scM0_1 _ _); iexact HS1
      isplitl [HS2]; · iexact HS2
      iapply (owns_writes c scM0_3 _ _); iexact HS3
    iexact Hg
  isplitl [Ho]; · iexact Ho
  isplitl [H0]; · iexact H0
  isplitl [H1]; · iexact H1
  iexact H2

set_option maxHeartbeats 4000000 in
theorem sound_D (c : Dev nD) (t : Fin cfg0.N) (h64 : ¬t.val % 64 = 0) (h0 : t.val % 8 = 0) (h3 : ¬56 ≤ t.val % 64) :
    bodyPre m c t ⊢ wp frame (wpE (defs₀ (F := F)) Variants.none c none) Set.univ (bodyAt0 t) (fun _ => bodyPost m c t) := by
  have hz : t.val ≠ 0 := fun e => h64 (by rw [e])
  rw [post_eq, leaves2_idle m c t (by omega), outsAt0_D m c t h64 h0 h3]
  unfold bodyPre bodyAt0 stepD ownsSt
  simp only [before0_0, before0_1, before0_2]
  rw [PhiS_castSucc m c t, PhiS_pos m c _ _ hz]
  unfold ownsSt
  iintro ⟨⟨⟨HS0, HS1, HS2, HS3⟩, Hg⟩, Ho, ⟨%d0, H0⟩, ⟨%d1, H1⟩, ⟨%d2, H2⟩⟩
  iapply ((runD m c t h64 h0 h3 (prevAt m c t)).2.2 Set.univ _)
  isplitl [H0]; · iexact H0
  isplitl [H1]; · iexact H1
  isplitl [H2]; · iexists _; iexact H2
  isplitl [HS0]; · iexact HS0
  isplitl [HS1]; · iexact HS1
  isplitl [HS2]; · iexact HS2
  isplitl [HS3]; · iexact HS3
  iintro ⟨H0, H1, H2, HS0, HS1, HS2, HS3⟩
  isplitl [HS0 HS1 HS2 HS3 Hg]
  · isplitl [HS0 HS1 HS2 HS3]
    · isplitl [HS0]; · iapply (owns_writes c scM0_0 _ _); iexact HS0
      isplitl [HS1]; · iapply (owns_writes c scM0_1 _ _); iexact HS1
      isplitl [HS2]; · iexact HS2
      iexact HS3
    iexact Hg
  isplitl [Ho]; · iexact Ho
  isplitl [H0]; · iexact H0
  isplitl [H1]; · iexact H1
  iexact H2

set_option maxHeartbeats 4000000 in
theorem sound_G (c : Dev nD) (t : Fin cfg0.N) (h64 : ¬t.val % 64 = 0) (h0 : ¬t.val % 8 = 0) (h7 : t.val % 8 = 7) (h3 : 56 ≤ t.val % 64) :
    bodyPre m c t ⊢ wp frame (wpE (defs₀ (F := F)) Variants.none c none) Set.univ (bodyAt0 t) (fun _ => bodyPost m c t) := by
  have hz : t.val ≠ 0 := fun e => h64 (by rw [e])
  rw [post_eq, leaves2_live m c t (by omega), outsAt0_G m c t h64 h0 h7 h3]
  unfold bodyPre bodyAt0 stepG ownsSt
  simp only [before0_0, before0_1, before0_2]
  rw [PhiS_castSucc m c t, PhiS_pos m c _ _ hz]
  unfold ownsSt
  iintro ⟨⟨⟨HS0, HS1, HS2, HS3⟩, Hg⟩, Ho, ⟨%d0, H0⟩, ⟨%d1, H1⟩, ⟨%d2, H2⟩⟩
  iapply ((runG m c t h64 h0 h7 h3 (prevAt m c t)).2.2.2.2.2 Set.univ _)
  isplitl [H0]; · iexact H0
  isplitl [H1]; · iexact H1
  isplitl [H2]; · iexists _; iexact H2
  isplitl [HS0]; · iexact HS0
  isplitl [HS1]; · iexact HS1
  isplitl [HS2]; · iexact HS2
  isplitl [HS3]; · iexact HS3
  iintro ⟨H0, H1, ⟨%e5, H2⟩, HS0, HS1, HS2, HS3⟩
  isplitl [HS0 HS1 HS2 HS3 Hg]
  · isplitl [HS0 HS1 HS2 HS3]
    · isplitl [HS0]; · iapply (owns_writes c scM0_0 _ _); iexact HS0
      isplitl [HS1]; · iapply (owns_writes c scM0_1 _ _); iexact HS1
      isplitl [HS2]; · iapply (owns_writes c scM0_2 _ _); iexact HS2
      iapply (owns_writes c scM0_3 _ _); iexact HS3
    iexact Hg
  isplitl [Ho]; · iexact Ho
  isplitl [H0]; · iexact H0
  isplitl [H1]; · iexact H1
  iapply (owns_writes_cover c (ms0_2 t) _ VO0_2 _ _ (coverG_2 m c t h64 h0 h7 h3 (prevAt m c t))); iexact H2

set_option maxHeartbeats 4000000 in
theorem sound_C (c : Dev nD) (t : Fin cfg0.N) (h64 : ¬t.val % 64 = 0) (h0 : ¬t.val % 8 = 0) (h7 : t.val % 8 = 7) (h3 : ¬56 ≤ t.val % 64) :
    bodyPre m c t ⊢ wp frame (wpE (defs₀ (F := F)) Variants.none c none) Set.univ (bodyAt0 t) (fun _ => bodyPost m c t) := by
  have hz : t.val ≠ 0 := fun e => h64 (by rw [e])
  rw [post_eq, leaves2_idle m c t (by omega), outsAt0_C m c t h64 h0 h7 h3]
  unfold bodyPre bodyAt0 stepC ownsSt
  simp only [before0_0, before0_1, before0_2]
  rw [PhiS_castSucc m c t, PhiS_pos m c _ _ hz]
  unfold ownsSt
  iintro ⟨⟨⟨HS0, HS1, HS2, HS3⟩, Hg⟩, Ho, ⟨%d0, H0⟩, ⟨%d1, H1⟩, ⟨%d2, H2⟩⟩
  iapply ((runC m c t h64 h0 h7 h3 (prevAt m c t)).2.2.2 Set.univ _)
  isplitl [H0]; · iexact H0
  isplitl [H1]; · iexact H1
  isplitl [H2]; · iexists _; iexact H2
  isplitl [HS0]; · iexact HS0
  isplitl [HS1]; · iexact HS1
  isplitl [HS2]; · iexact HS2
  isplitl [HS3]; · iexact HS3
  iintro ⟨H0, H1, H2, HS0, HS1, HS2, HS3⟩
  isplitl [HS0 HS1 HS2 HS3 Hg]
  · isplitl [HS0 HS1 HS2 HS3]
    · isplitl [HS0]; · iapply (owns_writes c scM0_0 _ _); iexact HS0
      isplitl [HS1]; · iapply (owns_writes c scM0_1 _ _); iexact HS1
      isplitl [HS2]; · iapply (owns_writes c scM0_2 _ _); iexact HS2
      iexact HS3
    iexact Hg
  isplitl [Ho]; · iexact Ho
  isplitl [H0]; · iexact H0
  isplitl [H1]; · iexact H1
  iexact H2

set_option maxHeartbeats 4000000 in
theorem sound_F (c : Dev nD) (t : Fin cfg0.N) (h64 : ¬t.val % 64 = 0) (h0 : ¬t.val % 8 = 0) (h7 : ¬t.val % 8 = 7) (h3 : 56 ≤ t.val % 64) :
    bodyPre m c t ⊢ wp frame (wpE (defs₀ (F := F)) Variants.none c none) Set.univ (bodyAt0 t) (fun _ => bodyPost m c t) := by
  have hz : t.val ≠ 0 := fun e => h64 (by rw [e])
  rw [post_eq, leaves2_idle m c t (by omega), outsAt0_F m c t h64 h0 h7 h3]
  unfold bodyPre bodyAt0 stepF ownsSt
  simp only [before0_0, before0_1, before0_2]
  rw [PhiS_castSucc m c t, PhiS_pos m c _ _ hz]
  unfold ownsSt
  iintro ⟨⟨⟨HS0, HS1, HS2, HS3⟩, Hg⟩, Ho, ⟨%d0, H0⟩, ⟨%d1, H1⟩, ⟨%d2, H2⟩⟩
  iapply ((runF m c t h64 h0 h7 h3 (prevAt m c t)).2.2.2 Set.univ _)
  isplitl [H0]; · iexact H0
  isplitl [H1]; · iexact H1
  isplitl [H2]; · iexists _; iexact H2
  isplitl [HS0]; · iexact HS0
  isplitl [HS1]; · iexact HS1
  isplitl [HS2]; · iexact HS2
  isplitl [HS3]; · iexact HS3
  iintro ⟨H0, H1, H2, HS0, HS1, HS2, HS3⟩
  isplitl [HS0 HS1 HS2 HS3 Hg]
  · isplitl [HS0 HS1 HS2 HS3]
    · isplitl [HS0]; · iapply (owns_writes c scM0_0 _ _); iexact HS0
      isplitl [HS1]; · iapply (owns_writes c scM0_1 _ _); iexact HS1
      isplitl [HS2]; · iexact HS2
      iapply (owns_writes c scM0_3 _ _); iexact HS3
    iexact Hg
  isplitl [Ho]; · iexact Ho
  isplitl [H0]; · iexact H0
  isplitl [H1]; · iexact H1
  iexact H2

set_option maxHeartbeats 4000000 in
theorem sound_B (c : Dev nD) (t : Fin cfg0.N) (h64 : ¬t.val % 64 = 0) (h0 : ¬t.val % 8 = 0) (h7 : ¬t.val % 8 = 7) (h3 : ¬56 ≤ t.val % 64) :
    bodyPre m c t ⊢ wp frame (wpE (defs₀ (F := F)) Variants.none c none) Set.univ (bodyAt0 t) (fun _ => bodyPost m c t) := by
  have hz : t.val ≠ 0 := fun e => h64 (by rw [e])
  rw [post_eq, leaves2_idle m c t (by omega), outsAt0_B m c t h64 h0 h7 h3]
  unfold bodyPre bodyAt0 stepB ownsSt
  simp only [before0_0, before0_1, before0_2]
  rw [PhiS_castSucc m c t, PhiS_pos m c _ _ hz]
  unfold ownsSt
  iintro ⟨⟨⟨HS0, HS1, HS2, HS3⟩, Hg⟩, Ho, ⟨%d0, H0⟩, ⟨%d1, H1⟩, ⟨%d2, H2⟩⟩
  iapply ((runB m c t h64 h0 h7 h3 (prevAt m c t)).2.2 Set.univ _)
  isplitl [H0]; · iexact H0
  isplitl [H1]; · iexact H1
  isplitl [H2]; · iexists _; iexact H2
  isplitl [HS0]; · iexact HS0
  isplitl [HS1]; · iexact HS1
  isplitl [HS2]; · iexact HS2
  isplitl [HS3]; · iexact HS3
  iintro ⟨H0, H1, H2, HS0, HS1, HS2, HS3⟩
  isplitl [HS0 HS1 HS2 HS3 Hg]
  · isplitl [HS0 HS1 HS2 HS3]
    · isplitl [HS0]; · iapply (owns_writes c scM0_0 _ _); iexact HS0
      isplitl [HS1]; · iapply (owns_writes c scM0_1 _ _); iexact HS1
      isplitl [HS2]; · iexact HS2
      iexact HS3
    iexact Hg
  isplitl [Ho]; · iexact Ho
  isplitl [H0]; · iexact H0
  isplitl [H1]; · iexact H1
  iexact H2

theorem sound_body (c : Dev nD) (t : Fin cfg0.N) :
    bodyPre m c t ⊢ wp frame (wpE (defs₀ (F := F)) Variants.none c none) Set.univ (bodyAt0 t) (fun _ => bodyPost m c t) := by
  by_cases h64 : t.val % 64 = 0
  · by_cases hz : t.val = 0
    · exact sound_A_zero m c t h64 hz
    · exact sound_A_pos m c t h64 hz
  · by_cases h0 : t.val % 8 = 0
    · by_cases h3 : 56 ≤ t.val % 64
      · exact sound_E m c t h64 h0 h3
      · exact sound_D m c t h64 h0 h3
    · by_cases h7 : t.val % 8 = 7
      · by_cases h3 : 56 ≤ t.val % 64
        · exact sound_G m c t h64 h0 h7 h3
        · exact sound_C m c t h64 h0 h7 h3
      · by_cases h3 : 56 ≤ t.val % 64
        · exact sound_F m c t h64 h0 h7 h3
        · exact sound_B m c t h64 h0 h7 h3

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

-- After any point the invariant gives the launch's back: what the scratch buffers hold is forgotten.
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  unfold ownsSt
  iintro ⟨⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

theorem hout (c : Dev nD) : (dats m 0 c).Φ (Fin.last cfg0.N) ⊢ Pipeline.ΦA spec0 c :=
  Phi_out m c _ (by rw [Fin.val_last]; have : cfg0.N = 256 := N_0; omega)

set_option backward.isDefEq.respectTransparency.types false in
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

-- A buffer the five host operations after the region do not write is, after them, as the region found it.
theorem tail_keeps (c : Dev nD) (b : Ref sig .tc) (h0 : b ≠ main_v100) (h1 : b ≠ main_v101) (h2 : b ≠ main_v102)
    (h3 : b ≠ main_cst_23) (h4 : b ≠ main_v103) (harr : ∀ w, Pipeline.arrRef spec0 w ≠ b) :
    Pipeline.afterTail₀ cfgs (dats m) 0 (V0 m) [hostOps1] c b = V m c b := by
  unfold Pipeline.afterTail₀
  rw [StableHlo.after_of_forall_not_mem (b := Proc.devRef .tc b) _ _ (List.forall_iff_forall_mem.mp (by
    simp only [hostOps1, List.flatten_cons, List.flatten_nil, List.append_nil, List.Forall, StableHlo.nullary_writes, StableHlo.unary_writes, StableHlo.binary_writes, StableHlo.reshape_writes, StableHlo.TRef.nullary, StableHlo.TRef.unary, StableHlo.TRef.binary, Finset.mem_singleton]
    exact ⟨StableHlo.devRef_ne_of_ne h0, StableHlo.devRef_ne_of_ne h1, StableHlo.devRef_ne_of_ne h2, StableHlo.devRef_ne_of_ne h3, StableHlo.devRef_ne_of_ne h4⟩))]
  exact Pipeline.withArrays_of_ne _ c (V0 m c) _ b harr

-- The argument arrays end as at launch: no host operation writes one, and the region reads or writes none.
theorem args_kept {r} (h : Pipeline.FramePost cfgs (dats m) 0 (Pipeline.afterTail₀ cfgs (dats m) 0 (V0 m) [hostOps1]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 rfl (by decide))).trans
      ((tail_keeps m c main_arg0 (by decide) (by decide) (by decide) (by decide) (by decide) (by decide)).trans (V_main_arg0 m c)),
   ((h c).2 main_arg1 (Pipeline.mem_restRefs_of main_arg1 rfl (by decide))).trans
      ((tail_keeps m c main_arg1 (by decide) (by decide) (by decide) (by decide) (by decide) (by decide)).trans (V_main_arg1 m c)),
   ((h c).2 main_arg2 (Pipeline.mem_restRefs_of main_arg2 rfl (by decide))).trans
      ((tail_keeps m c main_arg2 (by decide) (by decide) (by decide) (by decide) (by decide) (by decide)).trans (V_main_arg2 m c)),
   ((h c).2 main_arg3 (Pipeline.mem_restRefs_of main_arg3 rfl (by decide))).trans
      ((tail_keeps m c main_arg3 (by decide) (by decide) (by decide) (by decide) (by decide) (by decide)).trans (V_main_arg3 m c)),
   ((h c).2 main_arg4 (Pipeline.mem_restRefs_of main_arg4 rfl (by decide))).trans
      ((tail_keeps m c main_arg4 (by decide) (by decide) (by decide) (by decide) (by decide) (by decide)).trans (V_main_arg4 m c))⟩

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => args_kept m h c) (run_main m ρ)

end Cert.KernelIdeal.Gen

end
-- ==== Proof.KI.Pieces.lean ====
import proofs.«129703_j21474836480057_1_alg».proof.Proof.KI.Outs
import Idealize.ShloMosaic.Lib.WritesUnit

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem off2_zero : (![0, 0] : Fin 2 → ℕ) = fun _ => 0 := funext fun a => by fin_cases a <;> rfl
theorem off3_zero : (![0, 0, 0] : Fin 3 → ℕ) = fun _ => 0 := funext fun a => by fin_cases a <;> rfl

section General

variable {κ : Kind} {sp : Space} {S : Shape} {e : EltTy}

theorem read_writes_cons_whole (v : View sig κ sp S e) (f : v.ty.Contents (Elt F)) {off : Fin S.rank → ℕ}
    (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  subst h
  funext y
  have e := View.read_writes_cons_emb v f (Rect.whole S) w L y
  rw [Rect.emb_whole_apply] at e
  exact e

theorem readAt_whole_unread (M : Memref sig κ sp S e) (hM : M.IsWhole) {off : Fin S.rank → ℕ}
    (h : off = fun _ => 0) (inb : ∀ a, off a + S.size a ≤ S.size a) (X : S.Idx → Elt F e) :
    View.readAt (Elt F) M.view (Rect.unit off S.size inb).toLoadRect (hM.unread X) = X := by
  rw [View.readAt_eq_ld, hM.read_unread, View.ld_unit_zero h]

theorem readCov_cons_unit_of_eq (v : View sig κ sp S e) {off off' size : Fin S.rank → ℕ}
    (inb : ∀ a, off a + size a ≤ S.size a) (inb' : ∀ a, off' a + size a ≤ S.size a)
    (heq : off' = off) (w : (Rect.unit off size inb).shape.Idx → Elt F e) (L : List (View.Piece (Elt F) S e)) :
    v.readCov ((⟨Rect.unit off size inb, w⟩ : View.Piece (Elt F) S e) :: L) (Rect.unit off' size inb').toLoadRect = w := by
  subst heq
  exact View.readCov_cons_toLoadRect v _ w L

end General

theorem coord2_lt (i : grid0.Coords) : (i 2).val < 8 := (i 2).isLt

def slice1 (i : grid0.Coords) (s1 : Vec F S1x8192 .f32) : Vec F S1x1024 .f32 :=
  View.ld (Val := Elt F) (e' := .f32) s1 (Rect.unit (s := S1x8192) (k0_off1 i) S1x1024.size (k0_off1_inb i))

def upd1 (i : grid0.Coords) (s1 : Vec F S1x8192 .f32) (v : Vec F S1x1024 .f32) : Vec F S1x8192 .f32 := fun y =>
  if h : 1024 * (i 2).val ≤ (y 1).val ∧ (y 1).val < 1024 * (i 2).val + 1024 then
    v (ValueIdx.ix2 (0 : Fin 1) (⟨(y 1).val - 1024 * (i 2).val, by omega⟩ : Fin 1024))
  else s1 y

theorem slice1_apply (i : grid0.Coords) (s1 : Vec F S1x8192 .f32) (cc : Fin 1024) :
    slice1 i s1 (ValueIdx.ix2 (0 : Fin 1) cc)
      = s1 (ValueIdx.ix2 (0 : Fin 1) (⟨1024 * (i 2).val + cc.val, by have := coord2_lt i; have := cc.isLt; omega⟩ : Fin 8192)) := by
  unfold slice1
  show s1 _ = s1 _
  congr 1
  funext a
  apply Fin.ext
  have e := k0_off1_eq i
  match a with
  | ⟨0, _⟩ => show (k0_off1 i) (0 : Fin 2) + 1 * 0 = 0; rw [e]; rfl
  | ⟨1, _⟩ => show (k0_off1 i) (1 : Fin 2) + 1 * cc.val = 1024 * (i 2).val + cc.val; rw [e]; show 1024 * (i 2).val + 1 * cc.val = _; omega

theorem upd1_apply_in (i : grid0.Coords) (s1 : Vec F S1x8192 .f32) (v : Vec F S1x1024 .f32) (cc : Fin 1024) :
    upd1 i s1 v (ValueIdx.ix2 (0 : Fin 1) (⟨1024 * (i 2).val + cc.val, by have := coord2_lt i; have := cc.isLt; omega⟩ : Fin 8192))
      = v (ValueIdx.ix2 (0 : Fin 1) cc) := by
  unfold upd1
  have hcc := cc.isLt
  rw [dif_pos (by show 1024 * (i 2).val ≤ 1024 * (i 2).val + cc.val ∧ 1024 * (i 2).val + cc.val < 1024 * (i 2).val + 1024; omega)]
  congr 1
  funext a
  apply Fin.ext
  match a with
  | ⟨0, _⟩ => rfl
  | ⟨1, _⟩ => show 1024 * (i 2).val + cc.val - 1024 * (i 2).val = cc.val; omega

theorem upd1_apply_out (i : grid0.Coords) (s1 : Vec F S1x8192 .f32) (v : Vec F S1x1024 .f32) (n : Fin 8192)
    (h : n.val < 1024 * (i 2).val ∨ 1024 * (i 2).val + 1024 ≤ n.val) :
    upd1 i s1 v (ValueIdx.ix2 (0 : Fin 1) n) = s1 (ValueIdx.ix2 (0 : Fin 1) n) := by
  unfold upd1
  rw [dif_neg (by show ¬(1024 * (i 2).val ≤ n.val ∧ n.val < 1024 * (i 2).val + 1024); omega)]

theorem slice1_upd1 (i : grid0.Coords) (s1 : Vec F S1x8192 .f32) (v : Vec F S1x1024 .f32) : slice1 i (upd1 i s1 v) = v := by
  funext j
  obtain ⟨u, cc, rfl⟩ : ∃ (u : Fin 1) (cc : Fin 1024), j = ValueIdx.ix2 u cc := ⟨j 0, j 1, ValueIdx.eq_ix2 j⟩
  obtain rfl : u = 0 := Subsingleton.elim _ _
  rw [slice1_apply, upd1_apply_in]

section Slice

variable {κ : Kind} {sp : Space}

theorem read_writes_cons_slice1 (v : View sig κ sp S1x8192 .f32) (f : v.ty.Contents (Elt F)) (i : grid0.Coords)
    (w : Vec F S1x1024 .f32) (L : List (View.Piece (Elt F) S1x8192 .f32)) (B : Vec F S1x8192 .f32)
    (hL : v.read (Elt F) (v.writes (Elt F) f L) = B) :
    v.read (Elt F) (v.writes (Elt F) f
        ((⟨Rect.unit (s := S1x8192) (k0_off1 i) S1x1024.size (k0_off1_inb i), w⟩ : View.Piece (Elt F) S1x8192 .f32) :: L))
      = upd1 i B w := by
  funext y
  unfold upd1
  have h0 : (y 0).val < 1 := (y 0).isLt
  by_cases h : 1024 * (i 2).val ≤ (y 1).val ∧ (y 1).val < 1024 * (i 2).val + 1024
  · rw [dif_pos h]
    exact View.read_writes_cons_unit_of_mem v f (k0_off1_inb i) w L y
      (ValueIdx.ix2 (0 : Fin 1) (⟨(y 1).val - 1024 * (i 2).val, by omega⟩ : Fin 1024)) (k0_off1_eq i) (fun a => by
        match a with
        | ⟨0, _⟩ => show (y 0).val = 0 + 0; omega
        | ⟨1, _⟩ => show (y 1).val = 1024 * (i 2).val + ((y 1).val - 1024 * (i 2).val); omega)
  · rw [dif_neg h, ← hL]
    exact View.read_writes_cons_unit_of_not_mem v f (k0_off1_inb i) w L y (k0_off1_eq i) (1 : Fin 2)
      (by show (y 1).val < 1024 * (i 2).val ∨ 1024 * (i 2).val + 1024 ≤ (y 1).val; omega)

theorem read_write_slice1_unread (M : Memref sig κ sp S1x8192 .f32) (hM : M.IsWhole) (i : grid0.Coords)
    (w : Vec F S1x1024 .f32) (X : Vec F S1x8192 .f32) :
    M.view.read (Elt F) (M.view.writes (Elt F) (hM.unread X)
        [(⟨Rect.unit (s := S1x8192) (k0_off1 i) S1x1024.size (k0_off1_inb i), w⟩ : View.Piece (Elt F) S1x8192 .f32)])
      = upd1 i X w :=
  read_writes_cons_slice1 M.view (hM.unread X) i w [] X (hM.read_unread X)

theorem readAt_slice1_of_read (v : View sig κ sp S1x8192 .f32) (f : v.ty.Contents (Elt F)) (i : grid0.Coords)
    (B : Vec F S1x8192 .f32) (h : v.read (Elt F) f = B) :
    View.readAt (Elt F) v (Rect.unit (s := S1x8192) (k0_off1 i) S1x1024.size (k0_off1_inb i)).toLoadRect f = slice1 i B := by
  rw [View.readAt_eq_ld, h]
  rfl

theorem readAt_slice1_unread (M : Memref sig κ sp S1x8192 .f32) (hM : M.IsWhole) (i : grid0.Coords) (X : Vec F S1x8192 .f32) :
    View.readAt (Elt F) M.view (Rect.unit (s := S1x8192) (k0_off1 i) S1x1024.size (k0_off1_inb i)).toLoadRect (hM.unread X)
      = slice1 i X :=
  readAt_slice1_of_read M.view _ i X (hM.read_unread X)

end Slice

section Cases

variable (m : (ℓ : Loc nD τ sig) → Buf (Elt F) ℓ) (c : Dev nD) (t : Fin cfg0.N)

set_option hygiene false in

local macro "open_step " st:ident ab:ident run:ident : tactic =>
  `(tactic| (unfold $st; dsimp only [wr, $ab:ident]; unfold $run; try dsimp only; try sl_unfold_run_names; try dsimp only))

set_option hygiene false in

local macro "read_pieces" : tactic =>
  `(tactic| simp only [read_writes_cons_whole (S := S1024x1) _ _ off2_zero, read_writes_cons_whole (S := S1x8192) _ _ off2_zero,
      read_writes_cons_whole (S := S1x1) _ _ off2_zero, read_writes_cons_whole (S := S1x8x128) _ _ off3_zero,
      View.readCov_unit_zero (S := S1024x1) _ off2_zero, View.readCov_unit_zero (S := S1x1) _ off2_zero,
      readAt_whole_unread (ms0_0 t) (hs0_0 t) off3_zero, readAt_whole_unread (ms0_1 t) (hs0_1 t) off3_zero, readAt_whole_unread scM0_0 hS0 off2_zero,
      readAt_whole_unread scM0_2 hS2 off2_zero, readAt_whole_unread scM0_3 hS3 off2_zero, readAt_slice1_unread scM0_1 hS1,
      readCov_cons_unit_of_eq (S := S1x8192) (off := k0_off1 (grid0.coords t)) (off' := k0_off2 (grid0.coords t)) _ (k0_off1_inb (grid0.coords t)) _ ((k0_off2_eq (grid0.coords t)).trans (k0_off1_eq (grid0.coords t)).symm)])

section
variable (h64 : t.val % 64 = 0)

theorem stepA_s0 :
    (stepA m c t h64).2.1
      = k0_pay1 (k0_pay11 (xblk m c t) (yblk m c t)) (k0_pay6 (F := F)) := by
  open_step stepA runA kernelRun0_A
  read_pieces

theorem stepA_s1 :
    (stepA m c t h64).2.2.1
      = upd1 (grid0.coords t) (k0_pay7 (F := F)) (k0_pay2 (k0_pay12 (xblk m c t) (yblk m c t)) (slice1 (grid0.coords t) (k0_pay7 (F := F)))) := by
  open_step stepA runA kernelRun0_A
  rw [read_writes_cons_slice1 _ _ (grid0.coords t) _ _ (k0_pay7 (F := F)) (read_writes_cons_whole (S := S1x8192) _ _ off2_zero _ _ _),
    readAt_slice1_of_read scM0_1.view _ (grid0.coords t) (k0_pay7 (F := F)) (read_writes_cons_whole (S := S1x8192) _ _ off2_zero _ _ _)]
  read_pieces

theorem stepA_s2 :
    (stepA m c t h64).2.2.2.1
      = (k0_pay8 (F := F)) := by
  open_step stepA runA kernelRun0_A
  read_pieces

theorem stepA_s3 :
    (stepA m c t h64).2.2.2.2
      = (k0_pay9 (F := F)) := by
  open_step stepA runA kernelRun0_A
  read_pieces

end

section
variable (h64 : ¬t.val % 64 = 0) (h0 : ¬t.val % 8 = 0) (h7 : ¬t.val % 8 = 7) (h3 : ¬56 ≤ t.val % 64) (s : St F)

theorem stepB_s0 :
    (stepB m c t h64 h0 h7 h3 s).2.1
      = k0_pay1 (k0_pay11 (xblk m c t) (yblk m c t)) s.2.1 := by
  open_step stepB runB kernelRun0_B
  read_pieces

theorem stepB_s1 :
    (stepB m c t h64 h0 h7 h3 s).2.2.1
      = upd1 (grid0.coords t) s.2.2.1 (k0_pay2 (k0_pay12 (xblk m c t) (yblk m c t)) (slice1 (grid0.coords t) s.2.2.1)) := by
  open_step stepB runB kernelRun0_B
  rw [read_write_slice1_unread scM0_1 hS1]
  read_pieces

theorem stepB_s2 :
    (stepB m c t h64 h0 h7 h3 s).2.2.2.1
      = s.2.2.2.1 := rfl

theorem stepB_s3 :
    (stepB m c t h64 h0 h7 h3 s).2.2.2.2
      = s.2.2.2.2 := rfl

end

section
variable (h64 : ¬t.val % 64 = 0) (h0 : ¬t.val % 8 = 0) (h7 : t.val % 8 = 7) (h3 : ¬56 ≤ t.val % 64) (s : St F)

theorem stepC_s0 :
    (stepC m c t h64 h0 h7 h3 s).2.1
      = k0_pay1 (k0_pay11 (xblk m c t) (yblk m c t)) s.2.1 := by
  open_step stepC runC kernelRun0_C
  read_pieces

theorem stepC_s1 :
    (stepC m c t h64 h0 h7 h3 s).2.2.1
      = upd1 (grid0.coords t) s.2.2.1 (k0_pay2 (k0_pay12 (xblk m c t) (yblk m c t)) (slice1 (grid0.coords t) s.2.2.1)) := by
  open_step stepC runC kernelRun0_C
  rw [read_write_slice1_unread scM0_1 hS1]
  read_pieces

theorem stepC_s2 :
    (stepC m c t h64 h0 h7 h3 s).2.2.2.1
      = k0_pay3 (k0_pay1 (k0_pay11 (xblk m c t) (yblk m c t)) s.2.1) s.2.2.2.1 := by
  open_step stepC runC kernelRun0_C
  read_pieces

theorem stepC_s3 :
    (stepC m c t h64 h0 h7 h3 s).2.2.2.2
      = s.2.2.2.2 := rfl

end

section
variable (h64 : ¬t.val % 64 = 0) (h0 : t.val % 8 = 0) (h3 : ¬56 ≤ t.val % 64) (s : St F)

theorem stepD_s0 :
    (stepD m c t h64 h0 h3 s).2.1
      = k0_pay1 (k0_pay11 (xblk m c t) (yblk m c t)) (k0_pay6 (F := F)) := by
  open_step stepD runD kernelRun0_D
  read_pieces

theorem stepD_s1 :
    (stepD m c t h64 h0 h3 s).2.2.1
      = upd1 (grid0.coords t) s.2.2.1 (k0_pay2 (k0_pay12 (xblk m c t) (yblk m c t)) (slice1 (grid0.coords t) s.2.2.1)) := by
  open_step stepD runD kernelRun0_D
  rw [read_write_slice1_unread scM0_1 hS1]
  read_pieces

theorem stepD_s2 :
    (stepD m c t h64 h0 h3 s).2.2.2.1
      = s.2.2.2.1 := rfl

theorem stepD_s3 :
    (stepD m c t h64 h0 h3 s).2.2.2.2
      = s.2.2.2.2 := rfl

end

section
variable (h64 : ¬t.val % 64 = 0) (h0 : t.val % 8 = 0) (h3 : 56 ≤ t.val % 64) (s : St F)

theorem stepE_s0 :
    (stepE m c t h64 h0 h3 s).2.1
      = k0_pay1 (k0_pay11 (xblk m c t) (yblk m c t)) (k0_pay6 (F := F)) := by
  open_step stepE runE kernelRun0_E
  read_pieces

theorem stepE_s1 :
    (stepE m c t h64 h0 h3 s).2.2.1
      = upd1 (grid0.coords t) s.2.2.1 (k0_pay2 (k0_pay12 (xblk m c t) (yblk m c t)) (slice1 (grid0.coords t) s.2.2.1)) := by
  open_step stepE runE kernelRun0_E
  rw [read_write_slice1_unread scM0_1 hS1]
  read_pieces

theorem stepE_s2 :
    (stepE m c t h64 h0 h3 s).2.2.2.1
      = s.2.2.2.1 := rfl

theorem stepE_s3 :
    (stepE m c t h64 h0 h3 s).2.2.2.2
      = k0_pay4 (slice1 (grid0.coords t) (upd1 (grid0.coords t) s.2.2.1 (k0_pay2 (k0_pay12 (xblk m c t) (yblk m c t)) (slice1 (grid0.coords t) s.2.2.1)))) s.2.2.2.2 := by
  open_step stepE runE kernelRun0_E
  rw [slice1_upd1]
  read_pieces

end

section
variable (h64 : ¬t.val % 64 = 0) (h0 : ¬t.val % 8 = 0) (h7 : ¬t.val % 8 = 7) (h3 : 56 ≤ t.val % 64) (s : St F)

theorem stepF_s0 :
    (stepF m c t h64 h0 h7 h3 s).2.1
      = k0_pay1 (k0_pay11 (xblk m c t) (yblk m c t)) s.2.1 := by
  open_step stepF runF kernelRun0_F
  read_pieces

theorem stepF_s1 :
    (stepF m c t h64 h0 h7 h3 s).2.2.1
      = upd1 (grid0.coords t) s.2.2.1 (k0_pay2 (k0_pay12 (xblk m c t) (yblk m c t)) (slice1 (grid0.coords t) s.2.2.1)) := by
  open_step stepF runF kernelRun0_F
  rw [read_write_slice1_unread scM0_1 hS1]
  read_pieces

theorem stepF_s2 :
    (stepF m c t h64 h0 h7 h3 s).2.2.2.1
      = s.2.2.2.1 := rfl

theorem stepF_s3 :
    (stepF m c t h64 h0 h7 h3 s).2.2.2.2
      = k0_pay4 (slice1 (grid0.coords t) (upd1 (grid0.coords t) s.2.2.1 (k0_pay2 (k0_pay12 (xblk m c t) (yblk m c t)) (slice1 (grid0.coords t) s.2.2.1)))) s.2.2.2.2 := by
  open_step stepF runF kernelRun0_F
  rw [slice1_upd1]
  read_pieces

end

section
variable (h64 : ¬t.val % 64 = 0) (h0 : ¬t.val % 8 = 0) (h7 : t.val % 8 = 7) (h3 : 56 ≤ t.val % 64) (s : St F)

theorem stepG_s0 :
    (stepG m c t h64 h0 h7 h3 s).2.1
      = k0_pay1 (k0_pay11 (xblk m c t) (yblk m c t)) s.2.1 := by
  open_step stepG runG kernelRun0_G
  read_pieces

theorem stepG_s1 :
    (stepG m c t h64 h0 h7 h3 s).2.2.1
      = upd1 (grid0.coords t) s.2.2.1 (k0_pay2 (k0_pay12 (xblk m c t) (yblk m c t)) (slice1 (grid0.coords t) s.2.2.1)) := by
  open_step stepG runG kernelRun0_G
  rw [read_write_slice1_unread scM0_1 hS1]
  read_pieces

theorem stepG_s2 :
    (stepG m c t h64 h0 h7 h3 s).2.2.2.1
      = k0_pay3 (k0_pay1 (k0_pay11 (xblk m c t) (yblk m c t)) s.2.1) s.2.2.2.1 := by
  open_step stepG runG kernelRun0_G
  read_pieces

theorem stepG_s3 :
    (stepG m c t h64 h0 h7 h3 s).2.2.2.2
      = k0_pay4 (slice1 (grid0.coords t) (upd1 (grid0.coords t) s.2.2.1 (k0_pay2 (k0_pay12 (xblk m c t) (yblk m c t)) (slice1 (grid0.coords t) s.2.2.1)))) s.2.2.2.2 := by
  open_step stepG runG kernelRun0_G
  rw [slice1_upd1]
  read_pieces

theorem stepG_out :
    (stepG m c t h64 h0 h7 h3 s).1
      = k0_pay5 (k0_pay3 (k0_pay1 (k0_pay11 (xblk m c t) (yblk m c t)) s.2.1) s.2.2.2.1) (k0_pay4 (slice1 (grid0.coords t) (upd1 (grid0.coords t) s.2.2.1 (k0_pay2 (k0_pay12 (xblk m c t) (yblk m c t)) (slice1 (grid0.coords t) s.2.2.1)))) s.2.2.2.2) := by
  open_step stepG runG kernelRun0_G
  rw [slice1_upd1]
  read_pieces

end

end Cases

end Cert.KernelIdeal.Gen

end
-- ==== Proof.LibRowExtrema.lean ====
import Idealize.ShloMosaic.PureOps.Ideal.Laws

namespace Idealize.ShloMosaic.Ideal

variable {φ : FTy}

theorem multiReduction_minimumf_single {s t : Shape} {a : Fin s.rank} (src : FVec Ideal s φ)
    (acc : BitVec φ.bits) (h : s.Reduces [a] t) (hφ : FKind.Formats φ)
    (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]
  exact h.fold_filter_drop_single _ _ src j

theorem ofBits_neg_inf_f32 : FloatOps.ofBits (F := Ideal) .f32 0xFF800000#32 = (⊥ : EReal) := by
  show Ideal.ofBits .f32 0xFF800000#32 = ⊥
  simp [Ideal.ofBits, Ideal.ieee]

theorem ofBits_pos_inf_f32 : FloatOps.ofBits (F := Ideal) .f32 0x7F800000#32 = (⊤ : EReal) := by
  show Ideal.ofBits .f32 0x7F800000#32 = ⊤
  simp [Ideal.ofBits, Ideal.ieee]

end Idealize.ShloMosaic.Ideal
-- ==== Proof.KI.Payload.lean ====
import proofs.«129703_j21474836480057_1_alg».proof.Proof.Gen.KernelIdeal.Skeleton
import proofs.«129703_j21474836480057_1_alg».proof.Proof.LibRowExtrema
import Idealize.ShloMosaic.PureOps.Ideal.Laws
import Idealize.ShloMosaic.Lib.ValueIdx
import Idealize.ShloMosaic.Lib.ValueLayout
import Idealize.ShloMosaic.Lib.Pipeline.Value

open scoped BigOperators

noncomputable section

namespace Cert.KernelIdeal.Payload

open Cert.KernelIdeal Cert.KernelIdeal.Gen Idealize.ShloMosaic Idealize.ShloMosaic.ValueIdx

variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem broadcastTo_11_ab_apply {a b : ℕ} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

theorem lift_axis1 {a b : ℕ} (h : (⟨2, ![a, b]⟩ : Shape).Reduces [1] ⟨1, ![a]⟩) (r : Fin a) (k : Fin b) :
    h.lift (ix1 r) k = ix2 r k := by
  funext c
  apply Fin.ext
  match c with
  | ⟨0, _⟩ => rfl
  | ⟨1, _⟩ => rfl

theorem lift_axis0 {a b : ℕ} (h : (⟨2, ![a, b]⟩ : Shape).Reduces [0] ⟨1, ![b]⟩) (c : Fin b) (k : Fin a) :
    h.lift (ix1 c) k = ix2 k c := by
  funext d
  apply Fin.ext
  match d with
  | ⟨0, _⟩ => rfl
  | ⟨1, _⟩ => rfl

theorem sum_axis1_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction (F := Ideal) .add [1] ⟨1, ![a]⟩ src 0x00000000#32 h hφ hacc (ix1 r) = ∑ k : Fin b, src (ix2 r k) := by
  refine (Ideal.multiReduction_add_single src _ h hφ hacc (ix1 r)).trans ?_
  exact Finset.sum_congr rfl fun k _ => congrArg src (lift_axis1 h r k)

theorem sum_axis0_apply {a b : ℕ} (src : FVec Ideal ⟨2, ![a, b]⟩ .f32) (h : (⟨2, ![a, b]⟩ : Shape).Reduces [0] ⟨1, ![b]⟩)
    (hφ : FKind.Formats .f32) (hacc : (0x00000000#32 : BitVec 32) = 0x00000000#32) (c : Fin b) :
    multiReduction (F := Ideal) .add [0] ⟨1, ![b]⟩ src 0x00000000#32 h hφ hacc (ix1 c) = ∑ k : Fin a, src (ix2 k c) := by
  refine (Ideal.multiReduction_add_single src _ h hφ hacc (ix1 c)).trans ?_
  exact Finset.sum_congr rfl fun k _ => congrArg src (lift_axis0 h c k)

theorem min_axis1_apply {a b : ℕ} (src : FVec Ideal ⟨2, ![a, b]⟩ .f32) (h : (⟨2, ![a, b]⟩ : Shape).Reduces [1] ⟨1, ![a]⟩)
    (hφ : FKind.Formats .f32) (hacc : (0x7F800000#32 : BitVec 32) = 0x7F800000#32) (r : Fin a) :
    multiReduction (F := Ideal) .minimumf [1] ⟨1, ![a]⟩ src 0x7F800000#32 h hφ hacc (ix1 r)
      = (Finset.univ : Finset (Fin b)).fold min (⊤ : EReal) (fun k => src (ix2 r k)) := by
  refine (Ideal.multiReduction_minimumf_single src _ h hφ hacc (ix1 r)).trans ?_
  rw [Ideal.ofBits_pos_inf_f32]
  exact congrArg (fun g => (Finset.univ : Finset (Fin b)).fold min (⊤ : EReal) g) (funext fun k => congrArg src (lift_axis1 h r k))

theorem min_axis0_apply {a b : ℕ} (src : FVec Ideal ⟨2, ![a, b]⟩ .f32) (h : (⟨2, ![a, b]⟩ : Shape).Reduces [0] ⟨1, ![b]⟩)
    (hφ : FKind.Formats .f32) (hacc : (0x7F800000#32 : BitVec 32) = 0x7F800000#32) (c : Fin b) :
    multiReduction (F := Ideal) .minimumf [0] ⟨1, ![b]⟩ src 0x7F800000#32 h hφ hacc (ix1 c)
      = (Finset.univ : Finset (Fin a)).fold min (⊤ : EReal) (fun k => src (ix2 k c)) := by
  refine (Ideal.multiReduction_minimumf_single src _ h hφ hacc (ix1 c)).trans ?_
  rw [Ideal.ofBits_pos_inf_f32]
  exact congrArg (fun g => (Finset.univ : Finset (Fin a)).fold min (⊤ : EReal) g) (funext fun k => congrArg src (lift_axis0 h c k))

section Product

theorem lhs_axis0 (j : S1024x1024.Idx) (k : dot_S1024x4_S1024x4_S1024x1024_1_1_0_0_n_n.contr.Idx) :
    (dot_S1024x4_S1024x4_S1024x1024_1_1_0_0_n_n.lhsIdx j k 0).val = (j 0).val := by
  simp [DotDims.lhsIdx, dot_S1024x4_S1024x4_S1024x1024_1_1_0_0_n_n]
  rfl

theorem lhs_axis1 (j : S1024x1024.Idx) (k : dot_S1024x4_S1024x4_S1024x1024_1_1_0_0_n_n.contr.Idx) :
    (dot_S1024x4_S1024x4_S1024x1024_1_1_0_0_n_n.lhsIdx j k 1).val = (k ⟨0, by decide⟩).val :=
  DotDims.lhsIdx_val_of_single _ rfl j k

theorem rhs_axis0 (j : S1024x1024.Idx) (k : dot_S1024x4_S1024x4_S1024x1024_1_1_0_0_n_n.contr.Idx) :
    (dot_S1024x4_S1024x4_S1024x1024_1_1_0_0_n_n.rhsIdx j k 0).val = (j 1).val := by
  simp [DotDims.rhsIdx, dot_S1024x4_S1024x4_S1024x1024_1_1_0_0_n_n]
  rfl

theorem rhs_axis1 (j : S1024x1024.Idx) (k : dot_S1024x4_S1024x4_S1024x1024_1_1_0_0_n_n.contr.Idx) :
    (dot_S1024x4_S1024x4_S1024x1024_1_1_0_0_n_n.rhsIdx j k 1).val = (k ⟨0, by decide⟩).val :=
  DotDims.rhsIdx_val_of_single _ rfl j k

theorem matmul_tile_apply {φ₁ φ₂ : FTy} (A : FVec Ideal S1024x4 φ₁) (B : FVec Ideal S1024x4 φ₂) (r cc : Fin 1024) :
    matmul dot_S1024x4_S1024x4_S1024x1024_1_1_0_0_n_n none A B (constant (F := Ideal) S1024x1024 .f32 0x00000000#32) (ix2 r cc)
      = ∑ k : Fin 4, A (ix2 r k) * B (ix2 cc k) := by
  show FloatOps.matmul _ none A B _ (ix2 r cc) = _
  rw [Ideal.matmul_constant_zero_apply,
    ← Equiv.sum_comp (contrEquiv1 dot_S1024x4_S1024x4_S1024x1024_1_1_0_0_n_n 4 rfl rfl).symm]
  refine Finset.sum_congr rfl fun k _ => ?_
  have hk := contrEquiv1_symm_val dot_S1024x4_S1024x4_S1024x1024_1_1_0_0_n_n 4 rfl rfl k
  have hl : dot_S1024x4_S1024x4_S1024x1024_1_1_0_0_n_n.lhsIdx (ix2 r cc)
      ((contrEquiv1 dot_S1024x4_S1024x4_S1024x1024_1_1_0_0_n_n 4 rfl rfl).symm k) = ix2 r k := by
    funext ax
    apply Fin.ext
    match ax with
    | ⟨0, _⟩ => exact lhs_axis0 _ _
    | ⟨1, _⟩ => exact (lhs_axis1 _ _).trans hk
  have hr : dot_S1024x4_S1024x4_S1024x1024_1_1_0_0_n_n.rhsIdx (ix2 r cc)
      ((contrEquiv1 dot_S1024x4_S1024x4_S1024x1024_1_1_0_0_n_n 4 rfl rfl).symm k) = ix2 cc k := by
    funext ax
    apply Fin.ext
    match ax with
    | ⟨0, _⟩ => exact rhs_axis0 _ _
    | ⟨1, _⟩ => exact (rhs_axis1 _ _).trans hk
  rw [hl, hr]

end Product

section Tile

variable (x0 x1 : Vec Ideal S1x1024x4 .f32) (r cc : Fin 1024)

theorem sqrt_apply {s : Shape} {φ : FTy} (a : FVec Ideal s φ) (i : s.Idx) : sqrt a i = Ideal.sqrt (a i) := rfl

theorem pay10_apply :
    k0_pay10 (F := Ideal) x0 x1 (ix2 r cc)
      = Ideal.sqrt (max
          ((∑ k : Fin 4, x0 (ix3 (0 : Fin 1) r k) * x0 (ix3 (0 : Fin 1) r k))
            + (∑ k : Fin 4, x1 (ix3 (0 : Fin 1) cc k) * x1 (ix3 (0 : Fin 1) cc k))
            - Ideal.ofBits .f32 0x40000000#32 * ∑ k : Fin 4, x0 (ix3 (0 : Fin 1) r k) * x1 (ix3 (0 : Fin 1) cc k))
          (Ideal.ofBits .f32 0x00000000#32)) := by
  simp only [k0_pay10]
  rw [sqrt_apply, maximumf_apply, subf_apply, addf_apply, mulf_apply, broadcast_apply, broadcast_apply,
    broadcastTo_a1_ab_apply, broadcastTo_1b_ab_apply, transpose_ix2_apply, shapeCast_a_a1_apply, shapeCast_a_a1_apply,
    sum_axis1_apply, sum_axis1_apply, matmul_tile_apply]
  simp only [mulf_apply, truncf_apply, shapeCast_1ab_ab_apply]
  rfl

end Tile

section Minima

variable (x0 x1 : Vec Ideal S1x1024x4 .f32) (r cc : Fin 1024)

theorem pay11_apply :
    k0_pay11 (F := Ideal) x0 x1 (ix2 r (0 : Fin 1))
      = (Finset.univ : Finset (Fin 1024)).fold min (⊤ : EReal) (fun cc => k0_pay10 (F := Ideal) x0 x1 (ix2 r cc)) := by
  unfold k0_pay11
  rw [shapeCast_a_a1_apply, min_axis1_apply]

theorem pay12_apply :
    k0_pay12 (F := Ideal) x0 x1 (ix2 (0 : Fin 1) cc)
      = (Finset.univ : Finset (Fin 1024)).fold min (⊤ : EReal) (fun r => k0_pay10 (F := Ideal) x0 x1 (ix2 r cc)) := by
  unfold k0_pay12
  rw [shapeCast_a_1a_apply, min_axis0_apply]

end Minima

section Small

variable (r cc : Fin 1024)

theorem pay1_apply (v32 v35 : Vec Ideal S1024x1 .f32) :
    k0_pay1 (F := Ideal) v32 v35 (ix2 r (0 : Fin 1)) = min (v35 (ix2 r (0 : Fin 1))) (v32 (ix2 r (0 : Fin 1))) := by
  unfold k0_pay1
  rw [shapeCast_self]
  rfl

theorem pay2_apply (v34 v43 : Vec Ideal S1x1024 .f32) :
    k0_pay2 (F := Ideal) v34 v43 (ix2 (0 : Fin 1) cc) = min (v43 (ix2 (0 : Fin 1) cc)) (v34 (ix2 (0 : Fin 1) cc)) := by
  unfold k0_pay2
  rw [shapeCast_self]
  rfl

theorem pay3_apply (v60 : Vec Ideal S1024x1 .f32) (v63 : Vec Ideal S1x1 .f32) :
    k0_pay3 (F := Ideal) v60 v63 (ix2 (0 : Fin 1) (0 : Fin 1))
      = v63 (ix2 (0 : Fin 1) (0 : Fin 1)) + ∑ r : Fin 1024, v60 (ix2 r (0 : Fin 1)) := by
  unfold k0_pay3
  rw [shapeCast_self, addf_apply, shapeCast_a_1a_apply, sum_axis0_apply]

theorem pay4_apply (v61 : Vec Ideal S1x1024 .f32) (v64 : Vec Ideal S1x1 .f32) :
    k0_pay4 (F := Ideal) v61 v64 (ix2 (0 : Fin 1) (0 : Fin 1))
      = v64 (ix2 (0 : Fin 1) (0 : Fin 1)) + ∑ cc : Fin 1024, v61 (ix2 (0 : Fin 1) cc) := by
  unfold k0_pay4
  rw [shapeCast_self, addf_apply, shapeCast_a_1a_apply, sum_axis1_apply]

theorem pay5_apply (v60 v63 : Vec Ideal S1x1 .f32) (a : Fin 8) (b : Fin 128) :
    k0_pay5 (F := Ideal) v60 v63 (ix3 (0 : Fin 1) a b)
      = Ideal.div (v60 (ix2 (0 : Fin 1) (0 : Fin 1))) (Ideal.ofBits .f32 0x46000000#32)
        + Ideal.div (v63 (ix2 (0 : Fin 1) (0 : Fin 1))) (Ideal.ofBits .f32 0x46000000#32) := by
  unfold k0_pay5
  rw [shapeCast_ab_1ab_apply, broadcastTo_11_ab_apply, shapeCast_self]
  rfl

theorem pay6_apply : (k0_pay6 (F := Ideal)) (ix2 r (0 : Fin 1)) = (⊤ : EReal) := by
  unfold k0_pay6
  rw [shapeCast_self]
  exact Ideal.ofBits_pos_inf_f32

theorem pay7_apply (n : Fin 8192) : (k0_pay7 (F := Ideal)) (ix2 (0 : Fin 1) n) = (⊤ : EReal) := by
  unfold k0_pay7
  rw [shapeCast_self]
  exact Ideal.ofBits_pos_inf_f32

theorem pay8_apply : (k0_pay8 (F := Ideal)) (ix2 (0 : Fin 1) (0 : Fin 1)) = (0 : EReal) := by
  unfold k0_pay8
  rw [shapeCast_self]
  exact Ideal.ofBits_zero_f32

theorem pay9_apply : (k0_pay9 (F := Ideal)) (ix2 (0 : Fin 1) (0 : Fin 1)) = (0 : EReal) := by
  unfold k0_pay9
  rw [shapeCast_self]
  exact Ideal.ofBits_zero_f32

end Small

end Cert.KernelIdeal.Payload

end
-- ==== Proof.Spec.lean ====
import Idealize.ShloMosaic.PureOps.Ideal
import Idealize.ShloMosaic.PureOps.Ideal.Laws

open scoped BigOperators

noncomputable section

namespace Cert.Spec

open Idealize.ShloMosaic

abbrev Pts := Fin 4 → Fin 8192 → Fin 4 → EReal

def sq (x : Pts) (p : Fin 4) (a : Fin 8192) : EReal := ∑ k : Fin 4, x p a k * x p a k

def cross (x y : Pts) (p : Fin 4) (a b : Fin 8192) : EReal := ∑ k : Fin 4, x p a k * y p b k

def d2 (x y : Pts) (p : Fin 4) (a b : Fin 8192) : EReal :=
  sq x p a + sq y p b - Ideal.ofBits .f32 0x40000000#32 * cross x y p a b

def dist (x y : Pts) (p : Fin 4) (a b : Fin 8192) : EReal :=
  Ideal.sqrt (max (d2 x y p a b) (Ideal.ofBits .f32 0x00000000#32))

def rowMin (x y : Pts) (p : Fin 4) (a : Fin 8192) : EReal := Finset.univ.inf fun b : Fin 8192 => dist x y p a b

def colMin (x y : Pts) (p : Fin 4) (b : Fin 8192) : EReal := Finset.univ.inf fun a : Fin 8192 => dist x y p a b

def chamfer (x y : Pts) (p : Fin 4) : EReal :=
  Ideal.div (∑ a : Fin 8192, rowMin x y p a) (Ideal.ofBits .f32 0x46000000#32)
    + Ideal.div (∑ b : Fin 8192, colMin x y p b) (Ideal.ofBits .f32 0x46000000#32)

def objective (w : Fin 4 → EReal) (x y : Pts) : EReal :=
  Ideal.ofBits .f32 0x00000000#32 + ∑ p : Fin 4, w p * chamfer x y p

end Cert.Spec

end
-- ==== Proof.Partial.lean ====
import proofs.«129703_j21474836480057_1_alg».proof.Proof.Spec
import Mathlib.Data.Finset.Fold
import Mathlib.Data.Finset.Lattice.Fold
import Mathlib.Data.Fintype.Basic
import Mathlib.Algebra.BigOperators.Group.Finset.Basic
import Mathlib.Data.EReal.Basic

open scoped BigOperators

noncomputable section

namespace Cert.Spec

open Idealize.ShloMosaic

section General

variable {n : ℕ}

private def tile (n J T : ℕ) (h : J + T ≤ n) : Fin T ↪ Fin n where
  toFun c := ⟨J + c.val, by have := c.isLt; omega⟩
  inj' c d hcd := by
    have h1 : J + c.val = J + d.val := congrArg Fin.val hcd
    exact Fin.ext (by omega)

private theorem tile_val (J T : ℕ) (h : J + T ≤ n) (c : Fin T) : (tile n J T h c).val = J + c.val := rfl

private theorem below_add (J T : ℕ) (h : J + T ≤ n) :
    (Finset.univ.filter fun b : Fin n => b.val < J + T)
      = (Finset.univ.filter fun b : Fin n => b.val < J) ∪ (Finset.univ : Finset (Fin T)).map (tile n J T h) := by
  ext b
  simp only [Finset.mem_filter, Finset.mem_univ, true_and, Finset.mem_union, Finset.mem_map]
  constructor
  · intro hb
    rcases Nat.lt_or_ge b.val J with h' | h'
    · exact Or.inl h'
    · exact Or.inr ⟨⟨b.val - J, by omega⟩, Fin.ext (by rw [tile_val]; show J + (b.val - J) = b.val; omega)⟩
  · rintro (hb | ⟨c, rfl⟩)
    · omega
    · have := c.isLt
      rw [tile_val]
      omega

private theorem below_disjoint (J T : ℕ) (h : J + T ≤ n) :
    Disjoint (Finset.univ.filter fun b : Fin n => b.val < J) ((Finset.univ : Finset (Fin T)).map (tile n J T h)) := by
  rw [Finset.disjoint_left]
  intro b hb hb'
  simp only [Finset.mem_filter, Finset.mem_univ, true_and] at hb
  simp only [Finset.mem_map, Finset.mem_univ, true_and] at hb'
  obtain ⟨c, rfl⟩ := hb'
  rw [tile_val] at hb
  omega

private theorem below_zero : (Finset.univ.filter fun b : Fin n => b.val < 0) = ∅ := by
  ext b
  simp

private theorem below_all : (Finset.univ.filter fun b : Fin n => b.val < n) = Finset.univ := by
  ext b
  simp

theorem fold_min_eq_inf {ι : Type*} (s : Finset ι) (g : ι → EReal) :
    s.fold min (⊤ : EReal) g = s.inf g := by
  classical
  induction s using Finset.induction_on with
  | empty => rw [Finset.fold_empty, Finset.inf_empty]
  | insert a s ha ih => rw [Finset.fold_insert ha, Finset.inf_insert, ih]

private theorem inf_below_step (f : Fin n → EReal) (J T : ℕ) (h : J + T ≤ n) :
    (Finset.univ.filter fun b : Fin n => b.val < J + T).inf f
      = min ((Finset.univ.filter fun b : Fin n => b.val < J).inf f)
          ((Finset.univ : Finset (Fin T)).fold min (⊤ : EReal)
            (fun c => f ⟨J + c.val, by have := c.isLt; omega⟩)) := by
  rw [below_add J T h, Finset.inf_union, Finset.inf_map, fold_min_eq_inf]
  rfl

private theorem sum_below_step (g : Fin n → EReal) (I T : ℕ) (h : I + T ≤ n) :
    ∑ a ∈ Finset.univ.filter (fun a : Fin n => a.val < I + T), g a
      = ∑ a ∈ Finset.univ.filter (fun a : Fin n => a.val < I), g a
          + ∑ r : Fin T, g ⟨I + r.val, by have := r.isLt; omega⟩ := by
  rw [below_add I T h, Finset.sum_union (below_disjoint I T h), Finset.sum_map]
  rfl

end General

variable (x y : Pts) (p : Fin 4)

def rowPart (a : Fin 8192) (J : ℕ) : EReal :=
  (Finset.univ.filter fun b : Fin 8192 => b.val < J).inf (fun b => dist x y p a b)

theorem rowPart_zero (a : Fin 8192) : rowPart x y p a 0 = ⊤ := by
  unfold rowPart
  rw [below_zero, Finset.inf_empty]

theorem rowPart_step (a : Fin 8192) (J : ℕ) (hJ : J + 1024 ≤ 8192) :
    rowPart x y p a (J + 1024)
      = min (rowPart x y p a J)
          ((Finset.univ : Finset (Fin 1024)).fold min (⊤ : EReal)
            (fun cc => dist x y p a ⟨J + cc.val, by have := cc.isLt; omega⟩)) :=
  inf_below_step (fun b => dist x y p a b) J 1024 hJ

theorem rowPart_full (a : Fin 8192) : rowPart x y p a 8192 = rowMin x y p a := by
  unfold rowPart rowMin
  rw [below_all]

def colPart (b : Fin 8192) (I : ℕ) : EReal :=
  (Finset.univ.filter fun a : Fin 8192 => a.val < I).inf (fun a => dist x y p a b)

theorem colPart_zero (b : Fin 8192) : colPart x y p b 0 = ⊤ := by
  unfold colPart
  rw [below_zero, Finset.inf_empty]

theorem colPart_step (b : Fin 8192) (I : ℕ) (hI : I + 1024 ≤ 8192) :
    colPart x y p b (I + 1024)
      = min (colPart x y p b I)
          ((Finset.univ : Finset (Fin 1024)).fold min (⊤ : EReal)
            (fun r => dist x y p ⟨I + r.val, by have := r.isLt; omega⟩ b)) :=
  inf_below_step (fun a => dist x y p a b) I 1024 hI

theorem colPart_full (b : Fin 8192) : colPart x y p b 8192 = colMin x y p b := by
  unfold colPart colMin
  rw [below_all]

def rowSumPart (I : ℕ) : EReal := ∑ a ∈ Finset.univ.filter (fun a : Fin 8192 => a.val < I), rowMin x y p a

theorem rowSumPart_zero : rowSumPart x y p 0 = 0 := by
  unfold rowSumPart
  rw [below_zero, Finset.sum_empty]

theorem rowSumPart_step (I : ℕ) (hI : I + 1024 ≤ 8192) :
    rowSumPart x y p (I + 1024)
      = rowSumPart x y p I + ∑ r : Fin 1024, rowMin x y p ⟨I + r.val, by have := r.isLt; omega⟩ :=
  sum_below_step (fun a => rowMin x y p a) I 1024 hI

theorem rowSumPart_full : rowSumPart x y p 8192 = ∑ a : Fin 8192, rowMin x y p a := by
  unfold rowSumPart
  rw [below_all]

def colSumPart (J : ℕ) : EReal := ∑ b ∈ Finset.univ.filter (fun b : Fin 8192 => b.val < J), colMin x y p b

theorem colSumPart_zero : colSumPart x y p 0 = 0 := by
  unfold colSumPart
  rw [below_zero, Finset.sum_empty]

theorem colSumPart_step (J : ℕ) (hJ : J + 1024 ≤ 8192) :
    colSumPart x y p (J + 1024)
      = colSumPart x y p J + ∑ cc : Fin 1024, colMin x y p ⟨J + cc.val, by have := cc.isLt; omega⟩ :=
  sum_below_step (fun b => colMin x y p b) J 1024 hJ

theorem colSumPart_full : colSumPart x y p 8192 = ∑ b : Fin 8192, colMin x y p b := by
  unfold colSumPart
  rw [below_all]

theorem chamfer_eq_parts :
    chamfer x y p
      = Ideal.div (rowSumPart x y p 8192) (Ideal.ofBits .f32 0x46000000#32)
        + Ideal.div (colSumPart x y p 8192) (Ideal.ofBits .f32 0x46000000#32) := by
  rw [rowSumPart_full, colSumPart_full]
  rfl

end Cert.Spec

end
-- ==== Proof.KI.Tile.lean ====
import proofs.«129703_j21474836480057_1_alg».proof.Proof.KI.Blocks
import proofs.«129703_j21474836480057_1_alg».proof.Proof.KI.Payload
import proofs.«129703_j21474836480057_1_alg».proof.Proof.Spec
import proofs.«129703_j21474836480057_1_alg».proof.Proof.Partial

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

def ptsK (v : Vec Ideal S4x8192x4 .f32) : Cert.Spec.Pts := fun p a k => v (ValueIdx.ix3 p a k)

abbrev XX (c : Dev nD) : Cert.Spec.Pts := ptsK (V m c main_v98)

abbrev YY (c : Dev nD) : Cert.Spec.Pts := ptsK (V m c main_v97)

theorem point_lt (t : Fin cfg0.N) : t.val < 256 := by
  have := t.isLt
  have hN : cfg0.N = 256 := N_0
  omega

abbrev tPart (t : Fin cfg0.N) : Fin 4 := ⟨t.val / 64, by have := point_lt t; omega⟩

abbrev tRow (t : Fin cfg0.N) (r : Fin 1024) : Fin 8192 := ⟨1024 * (t.val / 8 % 8) + r.val, by have := r.isLt; omega⟩

abbrev tCol (t : Fin cfg0.N) (cc : Fin 1024) : Fin 8192 := ⟨1024 * (t.val % 8) + cc.val, by have := cc.isLt; omega⟩

variable (c : Dev nD) (t : Fin cfg0.N) (r cc : Fin 1024)

theorem tile_dist :
    k0_pay10 (F := Ideal) (xblk m c t) (yblk m c t) (ValueIdx.ix2 r cc)
      = Cert.Spec.dist (XX m c) (YY m c) (tPart t) (tRow t r) (tCol t cc) := by
  rw [Payload.pay10_apply]
  simp only [xblk_apply, yblk_apply]
  rfl

theorem tile_rowmin :
    k0_pay11 (F := Ideal) (xblk m c t) (yblk m c t) (ValueIdx.ix2 r (0 : Fin 1))
      = (Finset.univ : Finset (Fin 1024)).fold min (⊤ : EReal)
          (fun cc => Cert.Spec.dist (XX m c) (YY m c) (tPart t) (tRow t r) (tCol t cc)) := by
  rw [Payload.pay11_apply]
  exact congrArg (fun g => (Finset.univ : Finset (Fin 1024)).fold min (⊤ : EReal) g) (funext fun cc => tile_dist m c t r cc)

theorem tile_colmin :
    k0_pay12 (F := Ideal) (xblk m c t) (yblk m c t) (ValueIdx.ix2 (0 : Fin 1) cc)
      = (Finset.univ : Finset (Fin 1024)).fold min (⊤ : EReal)
          (fun r => Cert.Spec.dist (XX m c) (YY m c) (tPart t) (tRow t r) (tCol t cc)) := by
  rw [Payload.pay12_apply]
  exact congrArg (fun g => (Finset.univ : Finset (Fin 1024)).fold min (⊤ : EReal) g) (funext fun r => tile_dist m c t r cc)

theorem row_acc :
    min (Cert.Spec.rowPart (XX m c) (YY m c) (tPart t) (tRow t r) (1024 * (t.val % 8)))
        (k0_pay11 (F := Ideal) (xblk m c t) (yblk m c t) (ValueIdx.ix2 r (0 : Fin 1)))
      = Cert.Spec.rowPart (XX m c) (YY m c) (tPart t) (tRow t r) (1024 * (t.val % 8 + 1)) := by
  rw [tile_rowmin]
  have h : 1024 * (t.val % 8 + 1) = 1024 * (t.val % 8) + 1024 := by omega
  rw [h]
  exact (Cert.Spec.rowPart_step _ _ _ _ _ (by omega)).symm

theorem col_acc :
    min (Cert.Spec.colPart (XX m c) (YY m c) (tPart t) (tCol t cc) (1024 * (t.val / 8 % 8)))
        (k0_pay12 (F := Ideal) (xblk m c t) (yblk m c t) (ValueIdx.ix2 (0 : Fin 1) cc))
      = Cert.Spec.colPart (XX m c) (YY m c) (tPart t) (tCol t cc) (1024 * (t.val / 8 % 8 + 1)) := by
  rw [tile_colmin]
  have h : 1024 * (t.val / 8 % 8 + 1) = 1024 * (t.val / 8 % 8) + 1024 := by omega
  rw [h]
  exact (Cert.Spec.colPart_step _ _ _ _ _ (by omega)).symm

end Cert.KernelIdeal.Gen

end
-- ==== Proof.KI.InvRow.lean ====
import proofs.«129703_j21474836480057_1_alg».proof.Proof.KI.Tile

set_option maxRecDepth 16384

open scoped BigOperators

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ) (c : Dev nD)

theorem tPart_pred (t : Fin cfg0.N) (h64 : ¬t.val % 64 = 0) (hp : t.val - 1 < cfg0.N) :
    tPart ⟨t.val - 1, hp⟩ = tPart t :=
  Fin.ext (by show (t.val - 1) / 64 = t.val / 64; omega)

theorem tRow_pred (t : Fin cfg0.N) (h0 : ¬t.val % 8 = 0) (hp : t.val - 1 < cfg0.N) (r : Fin 1024) :
    tRow ⟨t.val - 1, hp⟩ r = tRow t r :=
  Fin.ext (by show 1024 * ((t.val - 1) / 8 % 8) + r.val = 1024 * (t.val / 8 % 8) + r.val; omega)

theorem row_step (t : Fin cfg0.N) (B0 : Vec Ideal S1024x1 .f32)
    (hB : ∀ r : Fin 1024, B0 (ix2 r (0 : Fin 1))
      = Cert.Spec.rowPart (XX m c) (YY m c) (tPart t) (tRow t r) (1024 * (t.val % 8))) (r : Fin 1024) :
    k0_pay1 (F := Ideal) (k0_pay11 (F := Ideal) (xblk m c t) (yblk m c t)) B0 (ix2 r (0 : Fin 1))
      = Cert.Spec.rowPart (XX m c) (YY m c) (tPart t) (tRow t r) (1024 * (t.val % 8 + 1)) := by
  rw [Payload.pay1_apply, hB r]
  exact row_acc m c t r

theorem row_reset (t : Fin cfg0.N) (h0 : t.val % 8 = 0) (r : Fin 1024) :
    k0_pay1 (F := Ideal) (k0_pay11 (F := Ideal) (xblk m c t) (yblk m c t)) (k0_pay6 (F := Ideal)) (ix2 r (0 : Fin 1))
      = Cert.Spec.rowPart (XX m c) (YY m c) (tPart t) (tRow t r) (1024 * (t.val % 8 + 1)) := by
  refine row_step m c t _ (fun r => ?_) r
  rw [Payload.pay6_apply, h0]
  exact (Cert.Spec.rowPart_zero _ _ _ _).symm

theorem row_keep (t : Fin cfg0.N) (h0 : ¬t.val % 8 = 0) (hp : t.val - 1 < cfg0.N) (B0 : Vec Ideal S1024x1 .f32)
    (ih : ∀ r : Fin 1024, B0 (ix2 r (0 : Fin 1))
      = Cert.Spec.rowPart (XX m c) (YY m c) (tPart ⟨t.val - 1, hp⟩) (tRow ⟨t.val - 1, hp⟩ r) (1024 * ((t.val - 1) % 8 + 1)))
    (r : Fin 1024) :
    k0_pay1 (F := Ideal) (k0_pay11 (F := Ideal) (xblk m c t) (yblk m c t)) B0 (ix2 r (0 : Fin 1))
      = Cert.Spec.rowPart (XX m c) (YY m c) (tPart t) (tRow t r) (1024 * (t.val % 8 + 1)) := by
  refine row_step m c t B0 (fun r => ?_) r
  have h64 : ¬t.val % 64 = 0 := by omega
  have e : (t.val - 1) % 8 + 1 = t.val % 8 := by omega
  rw [ih r, tPart_pred t h64 hp, tRow_pred t h0 hp r, e]

end Cert.KernelIdeal.Gen

end
-- ==== Proof.KI.InvCol.lean ====
import proofs.«129703_j21474836480057_1_alg».proof.Proof.KI.InvRow

set_option maxRecDepth 16384

open scoped BigOperators

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ) (c : Dev nD)

theorem col_cases (t : Fin cfg0.N) (b : Fin 8192) :
    (∃ cc : Fin 1024, b = tCol t cc) ∨ (b.val < 1024 * (t.val % 8) ∨ 1024 * (t.val % 8) + 1024 ≤ b.val) := by
  by_cases h : 1024 * (t.val % 8) ≤ b.val ∧ b.val < 1024 * (t.val % 8) + 1024
  · exact Or.inl ⟨⟨b.val - 1024 * (t.val % 8), by omega⟩, Fin.ext (by show b.val = 1024 * (t.val % 8) + (b.val - 1024 * (t.val % 8)); omega)⟩
  · exact Or.inr (by omega)

theorem col_step (t : Fin cfg0.N) (B1 S1' : Vec Ideal S1x8192 .f32)
    (hin : ∀ cc : Fin 1024, S1' (ix2 (0 : Fin 1) (tCol t cc))
      = min (B1 (ix2 (0 : Fin 1) (tCol t cc))) (k0_pay12 (F := Ideal) (xblk m c t) (yblk m c t) (ix2 (0 : Fin 1) cc)))
    (hout : ∀ b : Fin 8192, (b.val < 1024 * (t.val % 8) ∨ 1024 * (t.val % 8) + 1024 ≤ b.val) →
      S1' (ix2 (0 : Fin 1) b) = B1 (ix2 (0 : Fin 1) b))
    (hB : ∀ b : Fin 8192, B1 (ix2 (0 : Fin 1) b)
      = Cert.Spec.colPart (XX m c) (YY m c) (tPart t) b
          (if b.val < 1024 * (t.val % 8) then 1024 * (t.val / 8 % 8 + 1) else 1024 * (t.val / 8 % 8)))
    (b : Fin 8192) :
    S1' (ix2 (0 : Fin 1) b)
      = Cert.Spec.colPart (XX m c) (YY m c) (tPart t) b
          (if b.val < 1024 * (t.val % 8 + 1) then 1024 * (t.val / 8 % 8 + 1) else 1024 * (t.val / 8 % 8)) := by
  rcases col_cases t b with ⟨cc, rfl⟩ | h
  · have hcc := cc.isLt
    have h1 : ¬(tCol t cc).val < 1024 * (t.val % 8) := by show ¬1024 * (t.val % 8) + cc.val < 1024 * (t.val % 8); omega
    have h2 : (tCol t cc).val < 1024 * (t.val % 8 + 1) := by show 1024 * (t.val % 8) + cc.val < 1024 * (t.val % 8 + 1); omega
    rw [hin cc, hB (tCol t cc), if_neg h1, if_pos h2]
    exact col_acc m c t cc
  · rw [hout b h, hB b]
    by_cases h1 : b.val < 1024 * (t.val % 8)
    · have h2 : b.val < 1024 * (t.val % 8 + 1) := by omega
      rw [if_pos h1, if_pos h2]
    · have h2 : ¬b.val < 1024 * (t.val % 8 + 1) := by omega
      rw [if_neg h1, if_neg h2]

theorem col_base_first (t : Fin cfg0.N) (h64 : t.val % 64 = 0) (b : Fin 8192) :
    (k0_pay7 (F := Ideal)) (ix2 (0 : Fin 1) b)
      = Cert.Spec.colPart (XX m c) (YY m c) (tPart t) b
          (if b.val < 1024 * (t.val % 8) then 1024 * (t.val / 8 % 8 + 1) else 1024 * (t.val / 8 % 8)) := by
  have h1 : ¬b.val < 1024 * (t.val % 8) := by omega
  have h2 : 1024 * (t.val / 8 % 8) = 0 := by omega
  rw [Payload.pay7_apply, if_neg h1, h2]
  exact (Cert.Spec.colPart_zero _ _ _ _).symm

theorem col_base_pred (t : Fin cfg0.N) (h64 : ¬t.val % 64 = 0) (hp : t.val - 1 < cfg0.N) (B1 : Vec Ideal S1x8192 .f32)
    (ih : ∀ b : Fin 8192, B1 (ix2 (0 : Fin 1) b)
      = Cert.Spec.colPart (XX m c) (YY m c) (tPart ⟨t.val - 1, hp⟩) b
          (if b.val < 1024 * ((t.val - 1) % 8 + 1) then 1024 * ((t.val - 1) / 8 % 8 + 1) else 1024 * ((t.val - 1) / 8 % 8)))
    (b : Fin 8192) :
    B1 (ix2 (0 : Fin 1) b)
      = Cert.Spec.colPart (XX m c) (YY m c) (tPart t) b
          (if b.val < 1024 * (t.val % 8) then 1024 * (t.val / 8 % 8 + 1) else 1024 * (t.val / 8 % 8)) := by
  rw [ih b, tPart_pred t h64 hp]
  have hb := b.isLt
  refine congrArg _ ?_
  by_cases h0 : t.val % 8 = 0
  · have h1 : b.val < 1024 * ((t.val - 1) % 8 + 1) := by omega
    have h2 : ¬b.val < 1024 * (t.val % 8) := by omega
    rw [if_pos h1, if_neg h2]
    omega
  · have e1 : (t.val - 1) % 8 + 1 = t.val % 8 := by omega
    have e2 : (t.val - 1) / 8 % 8 = t.val / 8 % 8 := by omega
    rw [e1, e2]

end Cert.KernelIdeal.Gen

end
-- ==== Proof.KI.InvSums.lean ====
import proofs.«129703_j21474836480057_1_alg».proof.Proof.KI.InvCol

set_option maxRecDepth 16384

open scoped BigOperators

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ) (c : Dev nD)

theorem sum2_first (t : Fin cfg0.N) (h64 : t.val % 64 = 0) :
    (k0_pay8 (F := Ideal)) (ix2 (0 : Fin 1) (0 : Fin 1))
      = Cert.Spec.rowSumPart (XX m c) (YY m c) (tPart t)
          (if t.val % 8 = 7 then 1024 * (t.val / 8 % 8 + 1) else 1024 * (t.val / 8 % 8)) := by
  have h7 : ¬t.val % 8 = 7 := by omega
  have h2 : 1024 * (t.val / 8 % 8) = 0 := by omega
  rw [Payload.pay8_apply, if_neg h7, h2]
  exact (Cert.Spec.rowSumPart_zero _ _ _).symm

theorem sum2_keep (t : Fin cfg0.N) (h64 : ¬t.val % 64 = 0) (h7 : ¬t.val % 8 = 7) (hp : t.val - 1 < cfg0.N)
    (B2 : Vec Ideal S1x1 .f32)
    (ih : B2 (ix2 (0 : Fin 1) (0 : Fin 1))
      = Cert.Spec.rowSumPart (XX m c) (YY m c) (tPart ⟨t.val - 1, hp⟩)
          (if (t.val - 1) % 8 = 7 then 1024 * ((t.val - 1) / 8 % 8 + 1) else 1024 * ((t.val - 1) / 8 % 8))) :
    B2 (ix2 (0 : Fin 1) (0 : Fin 1))
      = Cert.Spec.rowSumPart (XX m c) (YY m c) (tPart t)
          (if t.val % 8 = 7 then 1024 * (t.val / 8 % 8 + 1) else 1024 * (t.val / 8 % 8)) := by
  rw [ih, tPart_pred t h64 hp, if_neg h7]
  refine congrArg _ ?_
  by_cases h0 : t.val % 8 = 0
  · have h1 : (t.val - 1) % 8 = 7 := by omega
    rw [if_pos h1]
    omega
  · have h1 : ¬(t.val - 1) % 8 = 7 := by omega
    rw [if_neg h1]
    omega

theorem sum2_add (t : Fin cfg0.N) (h64 : ¬t.val % 64 = 0) (h7 : t.val % 8 = 7) (hp : t.val - 1 < cfg0.N)
    (S0' : Vec Ideal S1024x1 .f32) (B2 : Vec Ideal S1x1 .f32)
    (hS0 : ∀ r : Fin 1024, S0' (ix2 r (0 : Fin 1))
      = Cert.Spec.rowPart (XX m c) (YY m c) (tPart t) (tRow t r) (1024 * (t.val % 8 + 1)))
    (ih : B2 (ix2 (0 : Fin 1) (0 : Fin 1))
      = Cert.Spec.rowSumPart (XX m c) (YY m c) (tPart ⟨t.val - 1, hp⟩)
          (if (t.val - 1) % 8 = 7 then 1024 * ((t.val - 1) / 8 % 8 + 1) else 1024 * ((t.val - 1) / 8 % 8))) :
    k0_pay3 (F := Ideal) S0' B2 (ix2 (0 : Fin 1) (0 : Fin 1))
      = Cert.Spec.rowSumPart (XX m c) (YY m c) (tPart t)
          (if t.val % 8 = 7 then 1024 * (t.val / 8 % 8 + 1) else 1024 * (t.val / 8 % 8)) := by
  have h1 : ¬(t.val - 1) % 8 = 7 := by omega
  have e1 : (t.val - 1) / 8 % 8 = t.val / 8 % 8 := by omega
  have e2 : 1024 * (t.val / 8 % 8 + 1) = 1024 * (t.val / 8 % 8) + 1024 := by omega
  have e3 : 1024 * (t.val % 8 + 1) = 8192 := by omega
  rw [Payload.pay3_apply, ih, tPart_pred t h64 hp, if_neg h1, if_pos h7, e1, e2,
    Cert.Spec.rowSumPart_step _ _ _ _ (by omega)]
  refine congrArg _ (Finset.sum_congr rfl fun r _ => ?_)
  rw [hS0 r, e3]
  exact Cert.Spec.rowPart_full _ _ _ _

theorem sum3_first (t : Fin cfg0.N) (h64 : t.val % 64 = 0) :
    (k0_pay9 (F := Ideal)) (ix2 (0 : Fin 1) (0 : Fin 1))
      = (if t.val / 8 % 8 = 7 then Cert.Spec.colSumPart (XX m c) (YY m c) (tPart t) (1024 * (t.val % 8 + 1)) else 0) := by
  have h7 : ¬t.val / 8 % 8 = 7 := by omega
  rw [Payload.pay9_apply, if_neg h7]

theorem sum3_keep (t : Fin cfg0.N) (h64 : ¬t.val % 64 = 0) (h3 : ¬56 ≤ t.val % 64) (hp : t.val - 1 < cfg0.N)
    (B3 : Vec Ideal S1x1 .f32)
    (ih : B3 (ix2 (0 : Fin 1) (0 : Fin 1))
      = (if (t.val - 1) / 8 % 8 = 7 then Cert.Spec.colSumPart (XX m c) (YY m c) (tPart ⟨t.val - 1, hp⟩) (1024 * ((t.val - 1) % 8 + 1)) else 0)) :
    B3 (ix2 (0 : Fin 1) (0 : Fin 1))
      = (if t.val / 8 % 8 = 7 then Cert.Spec.colSumPart (XX m c) (YY m c) (tPart t) (1024 * (t.val % 8 + 1)) else 0) := by
  have h1 : ¬(t.val - 1) / 8 % 8 = 7 := by omega
  have h2 : ¬t.val / 8 % 8 = 7 := by omega
  rw [ih, if_neg h1, if_neg h2]

theorem sum3_add (t : Fin cfg0.N) (h64 : ¬t.val % 64 = 0) (h3 : 56 ≤ t.val % 64) (hp : t.val - 1 < cfg0.N)
    (S1' : Vec Ideal S1x8192 .f32) (T : Vec Ideal S1x1024 .f32) (B3 : Vec Ideal S1x1 .f32)
    (hT : ∀ cc : Fin 1024, T (ix2 (0 : Fin 1) cc) = S1' (ix2 (0 : Fin 1) (tCol t cc)))
    (hS1 : ∀ b : Fin 8192, S1' (ix2 (0 : Fin 1) b)
      = Cert.Spec.colPart (XX m c) (YY m c) (tPart t) b
          (if b.val < 1024 * (t.val % 8 + 1) then 1024 * (t.val / 8 % 8 + 1) else 1024 * (t.val / 8 % 8)))
    (ih : B3 (ix2 (0 : Fin 1) (0 : Fin 1))
      = (if (t.val - 1) / 8 % 8 = 7 then Cert.Spec.colSumPart (XX m c) (YY m c) (tPart ⟨t.val - 1, hp⟩) (1024 * ((t.val - 1) % 8 + 1)) else 0)) :
    k0_pay4 (F := Ideal) T B3 (ix2 (0 : Fin 1) (0 : Fin 1))
      = (if t.val / 8 % 8 = 7 then Cert.Spec.colSumPart (XX m c) (YY m c) (tPart t) (1024 * (t.val % 8 + 1)) else 0) := by
  have h2 : t.val / 8 % 8 = 7 := by omega
  have e2 : 1024 * (t.val % 8 + 1) = 1024 * (t.val % 8) + 1024 := by omega
  have hB : B3 (ix2 (0 : Fin 1) (0 : Fin 1)) = Cert.Spec.colSumPart (XX m c) (YY m c) (tPart t) (1024 * (t.val % 8)) := by
    rw [ih]
    by_cases h0 : t.val % 8 = 0
    · have h1 : ¬(t.val - 1) / 8 % 8 = 7 := by omega
      rw [if_neg h1, h0]
      exact (Cert.Spec.colSumPart_zero _ _ _).symm
    · have h1 : (t.val - 1) / 8 % 8 = 7 := by omega
      have e1 : (t.val - 1) % 8 + 1 = t.val % 8 := by omega
      rw [if_pos h1, tPart_pred t h64 hp, e1]
  rw [Payload.pay4_apply, hB, if_pos h2, e2, Cert.Spec.colSumPart_step _ _ _ _ (by omega)]
  refine congrArg _ (Finset.sum_congr rfl fun cc _ => ?_)
  have hcc := cc.isLt
  have h4 : (tCol t cc).val < 1024 * (t.val % 8 + 1) := by show 1024 * (t.val % 8) + cc.val < 1024 * (t.val % 8 + 1); omega
  have e3 : 1024 * (t.val / 8 % 8 + 1) = 8192 := by omega
  rw [hT cc, hS1 (tCol t cc), if_pos h4, e3]
  exact Cert.Spec.colPart_full _ _ _ _

theorem out_val (t : Fin cfg0.N) (h63 : t.val % 64 = 63) (S2' S3' : Vec Ideal S1x1 .f32)
    (h2 : S2' (ix2 (0 : Fin 1) (0 : Fin 1))
      = Cert.Spec.rowSumPart (XX m c) (YY m c) (tPart t)
          (if t.val % 8 = 7 then 1024 * (t.val / 8 % 8 + 1) else 1024 * (t.val / 8 % 8)))
    (h3 : S3' (ix2 (0 : Fin 1) (0 : Fin 1))
      = (if t.val / 8 % 8 = 7 then Cert.Spec.colSumPart (XX m c) (YY m c) (tPart t) (1024 * (t.val % 8 + 1)) else 0))
    (a : Fin 8) (b : Fin 128) :
    k0_pay5 (F := Ideal) S2' S3' (ix3 (0 : Fin 1) a b) = Cert.Spec.chamfer (XX m c) (YY m c) (tPart t) := by
  have g7 : t.val % 8 = 7 := by omega
  have g3 : t.val / 8 % 8 = 7 := by omega
  have e1 : 1024 * (t.val / 8 % 8 + 1) = 8192 := by omega
  have e2 : 1024 * (t.val % 8 + 1) = 8192 := by omega
  rw [Payload.pay5_apply, h2, h3, if_pos g7, if_pos g3, e1, e2]
  exact (Cert.Spec.chamfer_eq_parts _ _ _).symm

end Cert.KernelIdeal.Gen

end
-- ==== Proof.KI.Invariant.lean ====
import proofs.«129703_j21474836480057_1_alg».proof.Proof.KI.Outs
import proofs.«129703_j21474836480057_1_alg».proof.Proof.KI.Pieces
import proofs.«129703_j21474836480057_1_alg».proof.Proof.KI.InvSums

set_option maxRecDepth 16384

open scoped BigOperators

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ) (c : Dev nD)

def Inv (n : ℕ) (hn : n < cfg0.N) (s : St Ideal) : Prop :=
    (∀ r : Fin 1024, s.2.1 (ix2 r (0 : Fin 1))
      = Cert.Spec.rowPart (XX m c) (YY m c) (tPart ⟨n, hn⟩) (tRow ⟨n, hn⟩ r) (1024 * (n % 8 + 1)))
  ∧ (∀ b : Fin 8192, s.2.2.1 (ix2 (0 : Fin 1) b)
      = Cert.Spec.colPart (XX m c) (YY m c) (tPart ⟨n, hn⟩) b
          (if b.val < 1024 * (n % 8 + 1) then 1024 * (n / 8 % 8 + 1) else 1024 * (n / 8 % 8)))
  ∧ s.2.2.2.1 (ix2 (0 : Fin 1) (0 : Fin 1))
      = Cert.Spec.rowSumPart (XX m c) (YY m c) (tPart ⟨n, hn⟩)
          (if n % 8 = 7 then 1024 * (n / 8 % 8 + 1) else 1024 * (n / 8 % 8))
  ∧ s.2.2.2.2 (ix2 (0 : Fin 1) (0 : Fin 1))
      = (if n / 8 % 8 = 7 then Cert.Spec.colSumPart (XX m c) (YY m c) (tPart ⟨n, hn⟩) (1024 * (n % 8 + 1)) else 0)

theorem coords2 : ∀ t : Fin cfg0.N, (grid0.coords t 2).val = t.val % 8 :=
  (by decide +kernel : ∀ t : Fin grid0.N, (grid0.coords t 2).val = t.val % 8)

theorem upd_in (t : Fin cfg0.N) (B1 : Vec Ideal S1x8192 .f32) (cc : Fin 1024) :
    upd1 (grid0.coords t) B1 (k0_pay2 (F := Ideal) (k0_pay12 (F := Ideal) (xblk m c t) (yblk m c t)) (slice1 (grid0.coords t) B1))
        (ix2 (0 : Fin 1) (tCol t cc))
      = min (B1 (ix2 (0 : Fin 1) (tCol t cc))) (k0_pay12 (F := Ideal) (xblk m c t) (yblk m c t) (ix2 (0 : Fin 1) cc)) := by
  have e : tCol t cc = (⟨1024 * (grid0.coords t 2).val + cc.val, by have := cc.isLt; have := coords2 t; omega⟩ : Fin 8192) :=
    Fin.ext (by show 1024 * (t.val % 8) + cc.val = 1024 * (grid0.coords t 2).val + cc.val; rw [coords2 t])
  rw [e, upd1_apply_in, Payload.pay2_apply, slice1_apply]

theorem upd_out (t : Fin cfg0.N) (B1 : Vec Ideal S1x8192 .f32) (v : Vec Ideal S1x1024 .f32) (b : Fin 8192)
    (h : b.val < 1024 * (t.val % 8) ∨ 1024 * (t.val % 8) + 1024 ≤ b.val) :
    upd1 (grid0.coords t) B1 v (ix2 (0 : Fin 1) b) = B1 (ix2 (0 : Fin 1) b) :=
  upd1_apply_out (grid0.coords t) B1 v b (by rw [coords2 t]; exact h)

theorem slice_at (t : Fin cfg0.N) (S1' : Vec Ideal S1x8192 .f32) (cc : Fin 1024) :
    slice1 (grid0.coords t) S1' (ix2 (0 : Fin 1) cc) = S1' (ix2 (0 : Fin 1) (tCol t cc)) := by
  have e : tCol t cc = (⟨1024 * (grid0.coords t 2).val + cc.val, by have := cc.isLt; have := coords2 t; omega⟩ : Fin 8192) :=
    Fin.ext (by show 1024 * (t.val % 8) + cc.val = 1024 * (grid0.coords t 2).val + cc.val; rw [coords2 t])
  rw [e, slice1_apply]

theorem col_after (t : Fin cfg0.N) (B1 : Vec Ideal S1x8192 .f32)
    (hB : ∀ b : Fin 8192, B1 (ix2 (0 : Fin 1) b)
      = Cert.Spec.colPart (XX m c) (YY m c) (tPart t) b
          (if b.val < 1024 * (t.val % 8) then 1024 * (t.val / 8 % 8 + 1) else 1024 * (t.val / 8 % 8)))
    (b : Fin 8192) :
    upd1 (grid0.coords t) B1 (k0_pay2 (F := Ideal) (k0_pay12 (F := Ideal) (xblk m c t) (yblk m c t)) (slice1 (grid0.coords t) B1))
        (ix2 (0 : Fin 1) b)
      = Cert.Spec.colPart (XX m c) (YY m c) (tPart t) b
          (if b.val < 1024 * (t.val % 8 + 1) then 1024 * (t.val / 8 % 8 + 1) else 1024 * (t.val / 8 % 8)) :=
  col_step m c t B1 _ (upd_in m c t B1) (fun b h => upd_out t B1 _ b h) hB b

theorem inv_A (t : Fin cfg0.N) (h64 : t.val % 64 = 0) :
    Inv m c t.val t.isLt (outsAt0 m c t.val t.isLt) := by
  have h0 : t.val % 8 = 0 := by omega
  rw [outsAt0_A m c t h64]
  have r0 := fun r => row_reset m c t h0 r
  have r1 := fun b => col_after m c t _ (col_base_first m c t h64) b
  refine ⟨fun r => ?_, fun b => ?_, ?_, ?_⟩
  · rw [stepA_s0]; exact r0 r
  · rw [stepA_s1]; exact r1 b
  · rw [stepA_s2]; exact sum2_first m c t h64
  · rw [stepA_s3]; exact sum3_first m c t h64

theorem inv_B (t : Fin cfg0.N) (h64 : ¬t.val % 64 = 0) (h0 : ¬t.val % 8 = 0) (h7 : ¬t.val % 8 = 7) (h3 : ¬56 ≤ t.val % 64)
    (ih : Inv m c (t.val - 1) (Nat.lt_of_le_of_lt (Nat.sub_le _ _) t.isLt) (outsAt0 m c (t.val - 1) (Nat.lt_of_le_of_lt (Nat.sub_le _ _) t.isLt))) :
    Inv m c t.val t.isLt (outsAt0 m c t.val t.isLt) := by
  rw [outsAt0_B m c t h64 h0 h7 h3]
  obtain ⟨i0, i1, i2, i3⟩ := ih
  have r0 := fun r => row_keep m c t h0 _ _ i0 r
  have r1 := fun b => col_after m c t _ (col_base_pred m c t h64 _ _ i1) b
  refine ⟨fun r => ?_, fun b => ?_, ?_, ?_⟩
  · rw [stepB_s0]; exact r0 r
  · rw [stepB_s1]; exact r1 b
  · rw [stepB_s2]; exact sum2_keep m c t h64 (by omega) _ _ i2
  · rw [stepB_s3]; exact sum3_keep m c t h64 h3 _ _ i3

theorem inv_C (t : Fin cfg0.N) (h64 : ¬t.val % 64 = 0) (h0 : ¬t.val % 8 = 0) (h7 : t.val % 8 = 7) (h3 : ¬56 ≤ t.val % 64)
    (ih : Inv m c (t.val - 1) (Nat.lt_of_le_of_lt (Nat.sub_le _ _) t.isLt) (outsAt0 m c (t.val - 1) (Nat.lt_of_le_of_lt (Nat.sub_le _ _) t.isLt))) :
    Inv m c t.val t.isLt (outsAt0 m c t.val t.isLt) := by
  rw [outsAt0_C m c t h64 h0 h7 h3]
  obtain ⟨i0, i1, i2, i3⟩ := ih
  have r0 := fun r => row_keep m c t h0 _ _ i0 r
  have r1 := fun b => col_after m c t _ (col_base_pred m c t h64 _ _ i1) b
  refine ⟨fun r => ?_, fun b => ?_, ?_, ?_⟩
  · rw [stepC_s0]; exact r0 r
  · rw [stepC_s1]; exact r1 b
  · rw [stepC_s2]; exact sum2_add m c t h64 h7 _ _ _ r0 i2
  · rw [stepC_s3]; exact sum3_keep m c t h64 h3 _ _ i3

theorem inv_D (t : Fin cfg0.N) (h64 : ¬t.val % 64 = 0) (h0 : t.val % 8 = 0) (h3 : ¬56 ≤ t.val % 64)
    (ih : Inv m c (t.val - 1) (Nat.lt_of_le_of_lt (Nat.sub_le _ _) t.isLt) (outsAt0 m c (t.val - 1) (Nat.lt_of_le_of_lt (Nat.sub_le _ _) t.isLt))) :
    Inv m c t.val t.isLt (outsAt0 m c t.val t.isLt) := by
  rw [outsAt0_D m c t h64 h0 h3]
  obtain ⟨i0, i1, i2, i3⟩ := ih
  have r0 := fun r => row_reset m c t h0 r
  have r1 := fun b => col_after m c t _ (col_base_pred m c t h64 _ _ i1) b
  refine ⟨fun r => ?_, fun b => ?_, ?_, ?_⟩
  · rw [stepD_s0]; exact r0 r
  · rw [stepD_s1]; exact r1 b
  · rw [stepD_s2]; exact sum2_keep m c t h64 (by omega) _ _ i2
  · rw [stepD_s3]; exact sum3_keep m c t h64 h3 _ _ i3

theorem inv_E (t : Fin cfg0.N) (h64 : ¬t.val % 64 = 0) (h0 : t.val % 8 = 0) (h3 : 56 ≤ t.val % 64)
    (ih : Inv m c (t.val - 1) (Nat.lt_of_le_of_lt (Nat.sub_le _ _) t.isLt) (outsAt0 m c (t.val - 1) (Nat.lt_of_le_of_lt (Nat.sub_le _ _) t.isLt))) :
    Inv m c t.val t.isLt (outsAt0 m c t.val t.isLt) := by
  rw [outsAt0_E m c t h64 h0 h3]
  obtain ⟨i0, i1, i2, i3⟩ := ih
  have r0 := fun r => row_reset m c t h0 r
  have r1 := fun b => col_after m c t _ (col_base_pred m c t h64 _ _ i1) b
  refine ⟨fun r => ?_, fun b => ?_, ?_, ?_⟩
  · rw [stepE_s0]; exact r0 r
  · rw [stepE_s1]; exact r1 b
  · rw [stepE_s2]; exact sum2_keep m c t h64 (by omega) _ _ i2
  · rw [stepE_s3]; exact sum3_add m c t h64 h3 _ _ _ _ (slice_at t _) r1 i3

theorem inv_F (t : Fin cfg0.N) (h64 : ¬t.val % 64 = 0) (h0 : ¬t.val % 8 = 0) (h7 : ¬t.val % 8 = 7) (h3 : 56 ≤ t.val % 64)
    (ih : Inv m c (t.val - 1) (Nat.lt_of_le_of_lt (Nat.sub_le _ _) t.isLt) (outsAt0 m c (t.val - 1) (Nat.lt_of_le_of_lt (Nat.sub_le _ _) t.isLt))) :
    Inv m c t.val t.isLt (outsAt0 m c t.val t.isLt) := by
  rw [outsAt0_F m c t h64 h0 h7 h3]
  obtain ⟨i0, i1, i2, i3⟩ := ih
  have r0 := fun r => row_keep m c t h0 _ _ i0 r
  have r1 := fun b => col_after m c t _ (col_base_pred m c t h64 _ _ i1) b
  refine ⟨fun r => ?_, fun b => ?_, ?_, ?_⟩
  · rw [stepF_s0]; exact r0 r
  · rw [stepF_s1]; exact r1 b
  · rw [stepF_s2]; exact sum2_keep m c t h64 (by omega) _ _ i2
  · rw [stepF_s3]; exact sum3_add m c t h64 h3 _ _ _ _ (slice_at t _) r1 i3

theorem inv_G (t : Fin cfg0.N) (h64 : ¬t.val % 64 = 0) (h0 : ¬t.val % 8 = 0) (h7 : t.val % 8 = 7) (h3 : 56 ≤ t.val % 64)
    (ih : Inv m c (t.val - 1) (Nat.lt_of_le_of_lt (Nat.sub_le _ _) t.isLt) (outsAt0 m c (t.val - 1) (Nat.lt_of_le_of_lt (Nat.sub_le _ _) t.isLt))) :
    Inv m c t.val t.isLt (outsAt0 m c t.val t.isLt) := by
  rw [outsAt0_G m c t h64 h0 h7 h3]
  obtain ⟨i0, i1, i2, i3⟩ := ih
  have r0 := fun r => row_keep m c t h0 _ _ i0 r
  have r1 := fun b => col_after m c t _ (col_base_pred m c t h64 _ _ i1) b
  refine ⟨fun r => ?_, fun b => ?_, ?_, ?_⟩
  · rw [stepG_s0]; exact r0 r
  · rw [stepG_s1]; exact r1 b
  · rw [stepG_s2]; exact sum2_add m c t h64 h7 _ _ _ r0 i2
  · rw [stepG_s3]; exact sum3_add m c t h64 h3 _ _ _ _ (slice_at t _) r1 i3

theorem inv_all : ∀ (n : ℕ) (hn : n < cfg0.N), Inv m c n hn (outsAt0 m c n hn)
  | 0, hn => inv_A m c ⟨0, hn⟩ (Nat.zero_mod _)
  | n + 1, hn => by
    have ih := inv_all n (Nat.lt_of_succ_lt hn)
    by_cases h64 : (n + 1) % 64 = 0
    · exact inv_A m c ⟨n + 1, hn⟩ h64
    · by_cases h0 : (n + 1) % 8 = 0
      · by_cases h3 : 56 ≤ (n + 1) % 64
        · exact inv_E m c ⟨n + 1, hn⟩ h64 h0 h3 ih
        · exact inv_D m c ⟨n + 1, hn⟩ h64 h0 h3 ih
      · by_cases h7 : (n + 1) % 8 = 7
        · by_cases h3 : 56 ≤ (n + 1) % 64
          · exact inv_G m c ⟨n + 1, hn⟩ h64 h0 h7 h3 ih
          · exact inv_C m c ⟨n + 1, hn⟩ h64 h0 h7 h3 ih
        · by_cases h3 : 56 ≤ (n + 1) % 64
          · exact inv_F m c ⟨n + 1, hn⟩ h64 h0 h7 h3 ih
          · exact inv_B m c ⟨n + 1, hn⟩ h64 h0 h7 h3 ih

theorem inv (n : ℕ) (hn : n < cfg0.N) :
      (∀ r : Fin 1024, (outsAt0 m c n hn).2.1 (ix2 r (0 : Fin 1)) = Cert.Spec.rowPart (XX m c) (YY m c) (tPart ⟨n, hn⟩) (tRow ⟨n, hn⟩ r) (1024 * (n % 8 + 1)))
    ∧ (∀ b : Fin 8192, (outsAt0 m c n hn).2.2.1 (ix2 (0 : Fin 1) b) = Cert.Spec.colPart (XX m c) (YY m c) (tPart ⟨n, hn⟩) b (if b.val < 1024 * (n % 8 + 1) then 1024 * (n / 8 % 8 + 1) else 1024 * (n / 8 % 8)))
    ∧ (outsAt0 m c n hn).2.2.2.1 (ix2 (0 : Fin 1) (0 : Fin 1)) = Cert.Spec.rowSumPart (XX m c) (YY m c) (tPart ⟨n, hn⟩) (if n % 8 = 7 then 1024 * (n / 8 % 8 + 1) else 1024 * (n / 8 % 8))
    ∧ (outsAt0 m c n hn).2.2.2.2 (ix2 (0 : Fin 1) (0 : Fin 1)) = (if n / 8 % 8 = 7 then Cert.Spec.colSumPart (XX m c) (YY m c) (tPart ⟨n, hn⟩) (1024 * (n % 8 + 1)) else 0) :=
  inv_all m c n hn

theorem out_final (n : ℕ) (hn : n < cfg0.N) (h63 : n % 64 = 63) (a : Fin 8) (b : Fin 128) :
    (outsAt0 m c n hn).1 (ix3 (0 : Fin 1) a b) = Cert.Spec.chamfer (XX m c) (YY m c) (tPart ⟨n, hn⟩) := by
  have h64 : ¬n % 64 = 0 := by omega
  have h0 : ¬n % 8 = 0 := by omega
  have h7 : n % 8 = 7 := by omega
  have h3 : 56 ≤ n % 64 := by omega
  obtain ⟨_, _, j2, j3⟩ := inv_all m c n hn
  have e := outsAt0_G m c ⟨n, hn⟩ h64 h0 h7 h3
  rw [e] at j2 j3 ⊢
  rw [stepG_s2] at j2
  rw [stepG_s3] at j3
  rw [stepG_out]
  exact out_val m c ⟨n, hn⟩ h63 _ _ j2 j3 a b

end Cert.KernelIdeal.Gen

end
-- ==== Proof.KI.Tail.lean ====
import proofs.«129703_j21474836480057_1_alg».proof.Proof.Gen.KernelIdeal.Launch
import Idealize.ShloMosaic.Lib.StableHlo.Run
import Idealize.ShloMosaic.Lib.ValueIdx
import Idealize.ShloMosaic.Lib.IdealHost
import Idealize.ShloMosaic.Lib.Pipeline.Value
import Idealize.ShloMosaic.PureOps.Ideal.Laws

open scoped BigOperators

noncomputable section

namespace Cert.KernelIdeal.Gen

open Cert.KernelIdeal Idealize.ShloMosaic Idealize.ShloMosaic.TcCoe Idealize.SL.Sem
open Idealize.ShloMosaic.StableHlo Idealize.ShloMosaic.ValueIdx

theorem sum_rank_one {M : Type} [AddCommMonoid M] {n : Nat} (f : (⟨1, ![n]⟩ : Shape).Idx → M) :
    ∑ i, f i = ∑ a : Fin n, f (ix1 a) :=
  (Equiv.sum_comp (⟨ix1, fun i => i 0, fun _ => rfl, fun i => (eq_ix1 i).symm⟩ : Fin n ≃ (⟨1, ![n]⟩ : Shape).Idx) f).symm

def cornerT (o : FVec Ideal S4x8x128 .f32) : FVec Ideal S4 .f32 :=
  shapeCast S4 (extractStridedSlice S4x1x1 ![0, 0, 0] o slices_S4x8x128_S4x1x1_0_0_0) shapeCasts_S4x1x1_S4

theorem cornerT_apply (o : FVec Ideal S4x8x128 .f32) (p : Fin 4) :
    cornerT o (ix1 p) = o (ix3 p (0 : Fin 8) (0 : Fin 128)) := by
  unfold cornerT
  rw [shapeCast_apply _ _ _ (ix3 p (0 : Fin 1) (0 : Fin 1)) (by
      rw [Shape.rowMajor_val_three, Shape.rowMajor_val_one]
      show (p.val * 1 + 0) * 1 + 0 = p.val
      omega),
    extractStridedSlice_apply _ _ _ _ (ix3 p (0 : Fin 8) (0 : Fin 128)) (fun a => by
      match a with
      | ⟨0, _⟩ => exact (Nat.zero_add _).symm
      | ⟨1, _⟩ => rfl
      | ⟨2, _⟩ => rfl)]

def tailT (w : FVec Ideal S4 .f32) (o : FVec Ideal S4x8x128 .f32) : FVec Ideal S_ .f32 :=
  Host.reduceAdd (mulf w (cornerT o)) (constant (F := Ideal) S_ .f32 0x00000000#32) reducesTo_S4_S_d0 h_S_

theorem tailT_apply (w : FVec Ideal S4 .f32) (o : FVec Ideal S4x8x128 .f32) (g : Fin 4 → EReal)
    (hg : ∀ p : Fin 4, o (ix3 p (0 : Fin 8) (0 : Fin 128)) = g p) (j : S_.Idx) :
    tailT w o j = Ideal.ofBits .f32 0x00000000#32 + ∑ p : Fin 4, w (ix1 p) * g p := by
  unfold tailT
  rw [hostReduceAdd_apply, Ideal.hostReduceAdd_total _ (fun b => b.elim0), sum_rank_one]
  show Ideal.ofBits .f32 0x00000000#32 + _ = _
  exact congrArg (Ideal.ofBits .f32 0x00000000#32 + ·)
    (Finset.sum_congr rfl fun p _ => congrArg (w (ix1 p) * ·) ((cornerT_apply o p).trans (hg p)))

theorem tail_v103 (A : Valuation τ sig (Elt Ideal)) (w g : Fin 4 → EReal)
    (hw : ∀ p : Fin 4, (A (Proc.devRef .tc main_arg2) : Vec Ideal S4 .f32) (ix1 p) = w p)
    (hg : ∀ p : Fin 4, (A (Proc.devRef .tc main_v99) : Vec Ideal S4x8x128 .f32) (ix3 p (0 : Fin 8) (0 : Fin 128)) = g p) :
    after (hostOps1 (F := Ideal)) A (Proc.devRef .tc main_v103)
      = fun _ => Ideal.ofBits .f32 0x00000000#32 + ∑ p : Fin 4, w p * g p := by
  have e : after (hostOps1 (F := Ideal)) A (Proc.devRef .tc main_v103)
      = tailT (A (Proc.devRef .tc main_arg2)) (A (Proc.devRef .tc main_v99)) := by
    after_results_simp
    rfl
  rw [e]
  exact funext fun j => (tailT_apply _ _ g hg j).trans
    (congrArg (Ideal.ofBits .f32 0x00000000#32 + ·) (Finset.sum_congr rfl fun p _ => congrArg (· * g p) (hw p)))

section AnyFloat
variable {F : FTy → Type} [FloatOps F]

theorem tail_keep_v93 (A : Valuation τ sig (Elt F)) :
    after (hostOps1 (F := F)) A (Proc.devRef .tc main_v93) = A (Proc.devRef .tc main_v93) := by
  after_results_simp
theorem tail_keep_arg0 (A : Valuation τ sig (Elt F)) :
    after (hostOps1 (F := F)) A (Proc.devRef .tc main_arg0) = A (Proc.devRef .tc main_arg0) := by
  after_results_simp
theorem tail_keep_arg1 (A : Valuation τ sig (Elt F)) :
    after (hostOps1 (F := F)) A (Proc.devRef .tc main_arg1) = A (Proc.devRef .tc main_arg1) := by
  after_results_simp
theorem tail_keep_arg2 (A : Valuation τ sig (Elt F)) :
    after (hostOps1 (F := F)) A (Proc.devRef .tc main_arg2) = A (Proc.devRef .tc main_arg2) := by
  after_results_simp
theorem tail_keep_arg3 (A : Valuation τ sig (Elt F)) :
    after (hostOps1 (F := F)) A (Proc.devRef .tc main_arg3) = A (Proc.devRef .tc main_arg3) := by
  after_results_simp
theorem tail_keep_arg4 (A : Valuation τ sig (Elt F)) :
    after (hostOps1 (F := F)) A (Proc.devRef .tc main_arg4) = A (Proc.devRef .tc main_arg4) := by
  after_results_simp

end AnyFloat

end Cert.KernelIdeal.Gen

end
-- ==== Proof.KI.Value.lean ====
import proofs.«129703_j21474836480057_1_alg».proof.Proof.KI.Frame
import proofs.«129703_j21474836480057_1_alg».proof.Proof.KI.Invariant
import proofs.«129703_j21474836480057_1_alg».proof.Proof.KI.Tail
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable (m : (ℓ : Loc nD τ sig) → Buf (Elt Ideal) ℓ) (ρ : Dev nD → PrngReg)

def Gout (c : Dev nD) : Vec Ideal S4x8x128 .f32 := fun j => Cert.Spec.chamfer (XX m c) (YY m c) (j 0)

theorem Gout_apply (c : Dev nD) (p : Fin 4) (a : Fin 8) (b : Fin 128) :
    Gout m c (ValueIdx.ix3 p a b) = Cert.Spec.chamfer (XX m c) (YY m c) p := rfl

theorem flushed_eq (c : Dev nD) (t : Fin cfg0.N) (hf : (cfg0.win 2).flush t = true) :
    (dats m 0 c).flushed 2 t = ((cfg0.win 2).blk t).view.read (Elt Ideal) (Gout m c) := by
  have h63 : t.val % 64 = 63 := (flush_out t).mp hf
  show (cfg0.win 2).cut (grid0.coords t) ((dats m 0 c).after 2 t) = _
  rw [after0_2]
  show ((outsAt0 m c t.val t.isLt).1 : Vec Ideal S1x8x128 .f32) = (((cfg0.win 2).blk t).view.read (Elt Ideal) (Gout m c) : Vec Ideal S1x8x128 .f32)
  funext j
  obtain ⟨u, a, b, rfl⟩ : ∃ (u : Fin 1) (a : Fin 8) (b : Fin 128), j = ValueIdx.ix3 u a b := ⟨j 0, j 1, j 2, ValueIdx.eq_ix3 j⟩
  obtain rfl : u = 0 := Subsingleton.elim _ _
  rw [oblk_read_apply, Gout_apply, out_final m c t.val t.isLt h63 a b]

theorem final2 (c : Dev nD) : (dats m 0 c).arrAt 2 cfg0.N = Gout m c :=
  (dats m 0 c).arrAt_eq_of_cover 2 (Gout m c) (fun t hf => flushed_eq m c t hf) cover_out

abbrev Atail (c : Dev nD) : Valuation τ sig (Elt Ideal) :=
  Pipeline.withArrays spec0 c (V0 m c) fun w => (dats m 0 c).arrAt w cfg0.N

theorem Atail_v99 (c : Dev nD) : Atail m c (Proc.devRef .tc main_v99) = Gout m c :=
  (Pipeline.withArrays_arr spec0 launch0.win.arr_inj c _ _ 2).trans (final2 m c)

theorem Atail_rest (c : Dev nD) (b : Ref sig .tc) (hb : ∀ w, Pipeline.arrRef spec0 w ≠ b) :
    Atail m c (Proc.devRef .tc b) = V m c b :=
  Pipeline.withArrays_of_ne spec0 c _ _ b hb

theorem valueRun : θ_run defs (onTc (τ := τ) (main (F := Ideal))) ⟨m, fun _ => 0, ρ⟩ (fun r => ∀ c : Dev nD,
      r.2.mem ((c.tc : Thread nD τ).loc main_v103) = (fun _ => Cert.Spec.objective (fun p => m ((c.tc : Thread nD τ).loc main_arg2) (ValueIdx.ix1 p)) (XX m c) (YY m c))
      ∧ r.2.mem ((c.tc : Thread nD τ).loc main_v93) = V m c main_v93
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ⟨?_, ?_, args_kept m h c⟩) (run_main m ρ)
  · refine ((h c).2 main_v103 (Pipeline.mem_restRefs_of main_v103 rfl (by decide))).trans ?_
    show StableHlo.after (List.flatten [hostOps1]) (Atail m c) (Proc.devRef .tc main_v103) = _
    simp only [List.flatten_cons, List.flatten_nil, List.append_nil]
    exact tail_v103 (Atail m c) (fun p => m ((c.tc : Thread nD τ).loc main_arg2) (ValueIdx.ix1 p)) (fun p => Cert.Spec.chamfer (XX m c) (YY m c) p)
      (fun p => by rw [Atail_rest m c main_arg2 (by decide), V_main_arg2])
      (fun p => by rw [Atail_v99, Gout_apply])
  · exact ((h c).2 main_v93 (Pipeline.mem_restRefs_of main_v93 rfl (by decide))).trans
      ((tail_keeps m c main_v93 (by decide) (by decide) (by decide) (by decide) (by decide) (by decide)))

end Cert.KernelIdeal.Gen

end
-- ==== Proof.RefRun.lean ====
import proofs.«129703_j21474836480057_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem

variable {F : FTy → Type} [FloatOps F]

set_option maxRecDepth 4096 in
set_option maxHeartbeats 4000000 in

abbrev pre0 : List (HloOp τ sig (Elt F)) :=
  [ StableHlo.nullary main_cst (fun i => FloatOps.ofBits .f32 (lit0 (S1x1x4.rowMajor i))),
    StableHlo.TRef.binary (.of main_arg3 : StableHlo.TRef sig ⟨S4x4, .f32⟩) (.of main_arg3 : StableHlo.TRef sig ⟨S4x4, .f32⟩) (.of main_call0_v0 : StableHlo.TRef sig ⟨S4x4, .f32⟩) mulf,
    StableHlo.TRef.nullary (.of main_call0_cst : StableHlo.TRef sig ⟨S_, .f32⟩) (constant S_ .f32 0x00000000#32),
    StableHlo.TRef.binary (.of main_call0_v0 : StableHlo.TRef sig ⟨S4x4, .f32⟩) (.of main_call0_cst : StableHlo.TRef sig ⟨S_, .f32⟩) (.of main_call0_v1 : StableHlo.TRef sig ⟨S4, .f32⟩) (fun x v => Host.reduceAdd x v reducesTo_S4x4_S4_d1 h_S_),
    StableHlo.TRef.unary (.of main_call0_v1 : StableHlo.TRef sig ⟨S4, .f32⟩) (.of main_call0_v2 : StableHlo.TRef sig ⟨S4x1, .f32⟩) (broadcastInDim S4x1 ![0] bcast_S4_S4x1_0),
    StableHlo.TRef.unary (.of main_call0_v2 : StableHlo.TRef sig ⟨S4x1, .f32⟩) (.of main_v0 : StableHlo.TRef sig ⟨S4x1, .f32⟩) Host.sqrt,
    StableHlo.unary main_v0 main_v1 (broadcastInDim S4x4 ![0, 1] bcast_S4x1_S4x4_0_1 : (⟨S4x1, .f32⟩ : BufTy).Contents (Elt F) → (⟨S4x4, .f32⟩ : BufTy).Contents (Elt F)),
    StableHlo.binary main_arg3 main_v1 main_v2 (Host.divf : (⟨S4x4, .f32⟩ : BufTy).Contents (Elt F) → (⟨S4x4, .f32⟩ : BufTy).Contents (Elt F) → (⟨S4x4, .f32⟩ : BufTy).Contents (Elt F)),
    StableHlo.unary main_v2 main_v3 ((extractStridedSlice S4x1 ![0, 0] · slices_S4x4_S4x1_0_0) : (⟨S4x4, .f32⟩ : BufTy).Contents (Elt F) → (⟨S4x1, .f32⟩ : BufTy).Contents (Elt F)),
    StableHlo.reshape main_v3 main_v4 rfl shapeCasts_S4x1_S4,
    StableHlo.unary main_v2 main_v5 ((extractStridedSlice S4x1 ![0, 1] · slices_S4x4_S4x1_0_1) : (⟨S4x4, .f32⟩ : BufTy).Contents (Elt F) → (⟨S4x1, .f32⟩ : BufTy).Contents (Elt F)),
    StableHlo.reshape main_v5 main_v6 rfl shapeCasts_S4x1_S4,
    StableHlo.unary main_v2 main_v7 ((extractStridedSlice S4x1 ![0, 2] · slices_S4x4_S4x1_0_2) : (⟨S4x4, .f32⟩ : BufTy).Contents (Elt F) → (⟨S4x1, .f32⟩ : BufTy).Contents (Elt F)),
    StableHlo.reshape main_v7 main_v8 rfl shapeCasts_S4x1_S4,
    StableHlo.unary main_v2 main_v9 ((extractStridedSlice S4x1 ![0, 3] · slices_S4x4_S4x1_0_3) : (⟨S4x4, .f32⟩ : BufTy).Contents (Elt F) → (⟨S4x1, .f32⟩ : BufTy).Contents (Elt F)),
    StableHlo.reshape main_v9 main_v10 rfl shapeCasts_S4x1_S4,
    StableHlo.nullary main_cst_0 (constant S_ .f32 0x40000000#32),
    StableHlo.unary main_cst_0 main_v11 (broadcastInDim S4 ![] bcast_S_S4 : (⟨S_, .f32⟩ : BufTy).Contents (Elt F) → (⟨S4, .f32⟩ : BufTy).Contents (Elt F)),
    StableHlo.binary main_v11 main_v8 main_v12 (mulf : (⟨S4, .f32⟩ : BufTy).Contents (Elt F) → (⟨S4, .f32⟩ : BufTy).Contents (Elt F) → (⟨S4, .f32⟩ : BufTy).Contents (Elt F)),
    StableHlo.binary main_v12 main_v8 main_v13 (mulf : (⟨S4, .f32⟩ : BufTy).Contents (Elt F) → (⟨S4, .f32⟩ : BufTy).Contents (Elt F) → (⟨S4, .f32⟩ : BufTy).Contents (Elt F)),
    StableHlo.nullary main_cst_1 (constant S_ .f32 0x3F800000#32),
    StableHlo.unary main_cst_1 main_v14 (broadcastInDim S4 ![] bcast_S_S4 : (⟨S_, .f32⟩ : BufTy).Contents (Elt F) → (⟨S4, .f32⟩ : BufTy).Contents (Elt F)),
    StableHlo.binary main_v14 main_v13 main_v15 (subf : (⟨S4, .f32⟩ : BufTy).Contents (Elt F) → (⟨S4, .f32⟩ : BufTy).Contents (Elt F) → (⟨S4, .f32⟩ : BufTy).Contents (Elt F)),
    StableHlo.nullary main_cst_2 (constant S_ .f32 0x40000000#32),
    StableHlo.unary main_cst_2 main_v16 (broadcastInDim S4 ![] bcast_S_S4 : (⟨S_, .f32⟩ : BufTy).Contents (Elt F) → (⟨S4, .f32⟩ : BufTy).Contents (Elt F)),
    StableHlo.binary main_v16 main_v10 main_v17 (mulf : (⟨S4, .f32⟩ : BufTy).Contents (Elt F) → (⟨S4, .f32⟩ : BufTy).Contents (Elt F) → (⟨S4, .f32⟩ : BufTy).Contents (Elt F)),
    StableHlo.binary main_v17 main_v10 main_v18 (mulf : (⟨S4, .f32⟩ : BufTy).Contents (Elt F) → (⟨S4, .f32⟩ : BufTy).Contents (Elt F) → (⟨S4, .f32⟩ : BufTy).Contents (Elt F)),
    StableHlo.binary main_v15 main_v18 main_v19 (subf : (⟨S4, .f32⟩ : BufTy).Contents (Elt F) → (⟨S4, .f32⟩ : BufTy).Contents (Elt F) → (⟨S4, .f32⟩ : BufTy).Contents (Elt F)),
    StableHlo.nullary main_cst_3 (constant S_ .f32 0x40000000#32),
    StableHlo.unary main_cst_3 main_v20 (broadcastInDim S4 ![] bcast_S_S4 : (⟨S_, .f32⟩ : BufTy).Contents (Elt F) → (⟨S4, .f32⟩ : BufTy).Contents (Elt F)),
    StableHlo.binary main_v20 main_v6 main_v21 (mulf : (⟨S4, .f32⟩ : BufTy).Contents (Elt F) → (⟨S4, .f32⟩ : BufTy).Contents (Elt F) → (⟨S4, .f32⟩ : BufTy).Contents (Elt F)),
    StableHlo.binary main_v21 main_v8 main_v22 (mulf : (⟨S4, .f32⟩ : BufTy).Contents (Elt F) → (⟨S4, .f32⟩ : BufTy).Contents (Elt F) → (⟨S4, .f32⟩ : BufTy).Contents (Elt F)),
    StableHlo.nullary main_cst_4 (constant S_ .f32 0x40000000#32),
    StableHlo.unary main_cst_4 main_v23 (broadcastInDim S4 ![] bcast_S_S4 : (⟨S_, .f32⟩ : BufTy).Contents (Elt F) → (⟨S4, .f32⟩ : BufTy).Contents (Elt F)),
    StableHlo.binary main_v23 main_v4 main_v24 (mulf : (⟨S4, .f32⟩ : BufTy).Contents (Elt F) → (⟨S4, .f32⟩ : BufTy).Contents (Elt F) → (⟨S4, .f32⟩ : BufTy).Contents (Elt F)),
    StableHlo.binary main_v24 main_v10 main_v25 (mulf : (⟨S4, .f32⟩ : BufTy).Contents (Elt F) → (⟨S4, .f32⟩ : BufTy).Contents (Elt F) → (⟨S4, .f32⟩ : BufTy).Contents (Elt F)),
    StableHlo.binary main_v22 main_v25 main_v26 (subf : (⟨S4, .f32⟩ : BufTy).Contents (Elt F) → (⟨S4, .f32⟩ : BufTy).Contents (Elt F) → (⟨S4, .f32⟩ : BufTy).Contents (Elt F)),
    StableHlo.nullary main_cst_5 (constant S_ .f32 0x40000000#32),
    StableHlo.unary main_cst_5 main_v27 (broadcastInDim S4 ![] bcast_S_S4 : (⟨S_, .f32⟩ : BufTy).Contents (Elt F) → (⟨S4, .f32⟩ : BufTy).Contents (Elt F)),
    StableHlo.binary main_v27 main_v4 main_v28 (mulf : (⟨S4, .f32⟩ : BufTy).Contents (Elt F) → (⟨S4, .f32⟩ : BufTy).Contents (Elt F) → (⟨S4, .f32⟩ : BufTy).Contents (Elt F)),
    StableHlo.binary main_v28 main_v8 main_v29 (mulf : (⟨S4, .f32⟩ : BufTy).Contents (Elt F) → (⟨S4, .f32⟩ : BufTy).Contents (Elt F) → (⟨S4, .f32⟩ : BufTy).Contents (Elt F)),
    StableHlo.nullary main_cst_6 (constant S_ .f32 0x40000000#32),
    StableHlo.unary main_cst_6 main_v30 (broadcastInDim S4 ![] bcast_S_S4 : (⟨S_, .f32⟩ : BufTy).Contents (Elt F) → (⟨S4, .f32⟩ : BufTy).Contents (Elt F)),
    StableHlo.binary main_v30 main_v6 main_v31 (mulf : (⟨S4, .f32⟩ : BufTy).Contents (Elt F) → (⟨S4, .f32⟩ : BufTy).Contents (Elt F) → (⟨S4, .f32⟩ : BufTy).Contents (Elt F)),
    StableHlo.binary main_v31 main_v10 main_v32 (mulf : (⟨S4, .f32⟩ : BufTy).Contents (Elt F) → (⟨S4, .f32⟩ : BufTy).Contents (Elt F) → (⟨S4, .f32⟩ : BufTy).Contents (Elt F)),
    StableHlo.binary main_v29 main_v32 main_v33 (addf : (⟨S4, .f32⟩ : BufTy).Contents (Elt F) → (⟨S4, .f32⟩ : BufTy).Contents (Elt F) → (⟨S4, .f32⟩ : BufTy).Contents (Elt F)),
    StableHlo.nullary main_cst_7 (constant S_ .f32 0x40000000#32),
    StableHlo.unary main_cst_7 main_v34 (broadcastInDim S4 ![] bcast_S_S4 : (⟨S_, .f32⟩ : BufTy).Contents (Elt F) → (⟨S4, .f32⟩ : BufTy).Contents (Elt F)),
    StableHlo.binary main_v34 main_v6 main_v35 (mulf : (⟨S4, .f32⟩ : BufTy).Contents (Elt F) → (⟨S4, .f32⟩ : BufTy).Contents (Elt F) → (⟨S4, .f32⟩ : BufTy).Contents (Elt F)),
    StableHlo.binary main_v35 main_v8 main_v36 (mulf : (⟨S4, .f32⟩ : BufTy).Contents (Elt F) → (⟨S4, .f32⟩ : BufTy).Contents (Elt F) → (⟨S4, .f32⟩ : BufTy).Contents (Elt F)),
    StableHlo.nullary main_cst_8 (constant S_ .f32 0x40000000#32),
    StableHlo.unary main_cst_8 main_v37 (broadcastInDim S4 ![] bcast_S_S4 : (⟨S_, .f32⟩ : BufTy).Contents (Elt F) → (⟨S4, .f32⟩ : BufTy).Contents (Elt F)),
    StableHlo.binary main_v37 main_v4 main_v38 (mulf : (⟨S4, .f32⟩ : BufTy).Contents (Elt F) → (⟨S4, .f32⟩ : BufTy).Contents (Elt F) → (⟨S4, .f32⟩ : BufTy).Contents (Elt F)),
    StableHlo.binary main_v38 main_v10 main_v39 (mulf : (⟨S4, .f32⟩ : BufTy).Contents (Elt F) → (⟨S4, .f32⟩ : BufTy).Contents (Elt F) → (⟨S4, .f32⟩ : BufTy).Contents (Elt F)),
    StableHlo.binary main_v36 main_v39 main_v40 (addf : (⟨S4, .f32⟩ : BufTy).Contents (Elt F) → (⟨S4, .f32⟩ : BufTy).Contents (Elt F) → (⟨S4, .f32⟩ : BufTy).Contents (Elt F)),
    StableHlo.nullary main_cst_9 (constant S_ .f32 0x40000000#32),
    StableHlo.unary main_cst_9 main_v41 (broadcastInDim S4 ![] bcast_S_S4 : (⟨S_, .f32⟩ : BufTy).Contents (Elt F) → (⟨S4, .f32⟩ : BufTy).Contents (Elt F)),
    StableHlo.binary main_v41 main_v6 main_v42 (mulf : (⟨S4, .f32⟩ : BufTy).Contents (Elt F) → (⟨S4, .f32⟩ : BufTy).Contents (Elt F) → (⟨S4, .f32⟩ : BufTy).Contents (Elt F)),
    StableHlo.binary main_v42 main_v6 main_v43 (mulf : (⟨S4, .f32⟩ : BufTy).Contents (Elt F) → (⟨S4, .f32⟩ : BufTy).Contents (Elt F) → (⟨S4, .f32⟩ : BufTy).Contents (Elt F)),
    StableHlo.nullary main_cst_10 (constant S_ .f32 0x3F800000#32),
    StableHlo.unary main_cst_10 main_v44 (broadcastInDim S4 ![] bcast_S_S4 : (⟨S_, .f32⟩ : BufTy).Contents (Elt F) → (⟨S4, .f32⟩ : BufTy).Contents (Elt F)),
    StableHlo.binary main_v44 main_v43 main_v45 (subf : (⟨S4, .f32⟩ : BufTy).Contents (Elt F) → (⟨S4, .f32⟩ : BufTy).Contents (Elt F) → (⟨S4, .f32⟩ : BufTy).Contents (Elt F)),
    StableHlo.nullary main_cst_11 (constant S_ .f32 0x40000000#32),
    StableHlo.unary main_cst_11 main_v46 (broadcastInDim S4 ![] bcast_S_S4 : (⟨S_, .f32⟩ : BufTy).Contents (Elt F) → (⟨S4, .f32⟩ : BufTy).Contents (Elt F)) ]

set_option maxRecDepth 4096 in
set_option maxHeartbeats 4000000 in

abbrev pre1 : List (HloOp τ sig (Elt F)) :=
  [ StableHlo.binary main_v46 main_v10 main_v47 (mulf : (⟨S4, .f32⟩ : BufTy).Contents (Elt F) → (⟨S4, .f32⟩ : BufTy).Contents (Elt F) → (⟨S4, .f32⟩ : BufTy).Contents (Elt F)),
    StableHlo.binary main_v47 main_v10 main_v48 (mulf : (⟨S4, .f32⟩ : BufTy).Contents (Elt F) → (⟨S4, .f32⟩ : BufTy).Contents (Elt F) → (⟨S4, .f32⟩ : BufTy).Contents (Elt F)),
    StableHlo.binary main_v45 main_v48 main_v49 (subf : (⟨S4, .f32⟩ : BufTy).Contents (Elt F) → (⟨S4, .f32⟩ : BufTy).Contents (Elt F) → (⟨S4, .f32⟩ : BufTy).Contents (Elt F)),
    StableHlo.nullary main_cst_12 (constant S_ .f32 0x40000000#32),
    StableHlo.unary main_cst_12 main_v50 (broadcastInDim S4 ![] bcast_S_S4 : (⟨S_, .f32⟩ : BufTy).Contents (Elt F) → (⟨S4, .f32⟩ : BufTy).Contents (Elt F)),
    StableHlo.binary main_v50 main_v8 main_v51 (mulf : (⟨S4, .f32⟩ : BufTy).Contents (Elt F) → (⟨S4, .f32⟩ : BufTy).Contents (Elt F) → (⟨S4, .f32⟩ : BufTy).Contents (Elt F)),
    StableHlo.binary main_v51 main_v10 main_v52 (mulf : (⟨S4, .f32⟩ : BufTy).Contents (Elt F) → (⟨S4, .f32⟩ : BufTy).Contents (Elt F) → (⟨S4, .f32⟩ : BufTy).Contents (Elt F)),
    StableHlo.nullary main_cst_13 (constant S_ .f32 0x40000000#32),
    StableHlo.unary main_cst_13 main_v53 (broadcastInDim S4 ![] bcast_S_S4 : (⟨S_, .f32⟩ : BufTy).Contents (Elt F) → (⟨S4, .f32⟩ : BufTy).Contents (Elt F)),
    StableHlo.binary main_v53 main_v4 main_v54 (mulf : (⟨S4, .f32⟩ : BufTy).Contents (Elt F) → (⟨S4, .f32⟩ : BufTy).Contents (Elt F) → (⟨S4, .f32⟩ : BufTy).Contents (Elt F)),
    StableHlo.binary main_v54 main_v6 main_v55 (mulf : (⟨S4, .f32⟩ : BufTy).Contents (Elt F) → (⟨S4, .f32⟩ : BufTy).Contents (Elt F) → (⟨S4, .f32⟩ : BufTy).Contents (Elt F)),
    StableHlo.binary main_v52 main_v55 main_v56 (subf : (⟨S4, .f32⟩ : BufTy).Contents (Elt F) → (⟨S4, .f32⟩ : BufTy).Contents (Elt F) → (⟨S4, .f32⟩ : BufTy).Contents (Elt F)),
    StableHlo.nullary main_cst_14 (constant S_ .f32 0x40000000#32),
    StableHlo.unary main_cst_14 main_v57 (broadcastInDim S4 ![] bcast_S_S4 : (⟨S_, .f32⟩ : BufTy).Contents (Elt F) → (⟨S4, .f32⟩ : BufTy).Contents (Elt F)),
    StableHlo.binary main_v57 main_v6 main_v58 (mulf : (⟨S4, .f32⟩ : BufTy).Contents (Elt F) → (⟨S4, .f32⟩ : BufTy).Contents (Elt F) → (⟨S4, .f32⟩ : BufTy).Contents (Elt F)),
    StableHlo.binary main_v58 main_v10 main_v59 (mulf : (⟨S4, .f32⟩ : BufTy).Contents (Elt F) → (⟨S4, .f32⟩ : BufTy).Contents (Elt F) → (⟨S4, .f32⟩ : BufTy).Contents (Elt F)),
    StableHlo.nullary main_cst_15 (constant S_ .f32 0x40000000#32),
    StableHlo.unary main_cst_15 main_v60 (broadcastInDim S4 ![] bcast_S_S4 : (⟨S_, .f32⟩ : BufTy).Contents (Elt F) → (⟨S4, .f32⟩ : BufTy).Contents (Elt F)),
    StableHlo.binary main_v60 main_v4 main_v61 (mulf : (⟨S4, .f32⟩ : BufTy).Contents (Elt F) → (⟨S4, .f32⟩ : BufTy).Contents (Elt F) → (⟨S4, .f32⟩ : BufTy).Contents (Elt F)),
    StableHlo.binary main_v61 main_v8 main_v62 (mulf : (⟨S4, .f32⟩ : BufTy).Contents (Elt F) → (⟨S4, .f32⟩ : BufTy).Contents (Elt F) → (⟨S4, .f32⟩ : BufTy).Contents (Elt F)),
    StableHlo.binary main_v59 main_v62 main_v63 (subf : (⟨S4, .f32⟩ : BufTy).Contents (Elt F) → (⟨S4, .f32⟩ : BufTy).Contents (Elt F) → (⟨S4, .f32⟩ : BufTy).Contents (Elt F)),
    StableHlo.nullary main_cst_16 (constant S_ .f32 0x40000000#32),
    StableHlo.unary main_cst_16 main_v64 (broadcastInDim S4 ![] bcast_S_S4 : (⟨S_, .f32⟩ : BufTy).Contents (Elt F) → (⟨S4, .f32⟩ : BufTy).Contents (Elt F)),
    StableHlo.binary main_v64 main_v4 main_v65 (mulf : (⟨S4, .f32⟩ : BufTy).Contents (Elt F) → (⟨S4, .f32⟩ : BufTy).Contents (Elt F) → (⟨S4, .f32⟩ : BufTy).Contents (Elt F)),
    StableHlo.binary main_v65 main_v6 main_v66 (mulf : (⟨S4, .f32⟩ : BufTy).Contents (Elt F) → (⟨S4, .f32⟩ : BufTy).Contents (Elt F) → (⟨S4, .f32⟩ : BufTy).Contents (Elt F)),
    StableHlo.nullary main_cst_17 (constant S_ .f32 0x40000000#32),
    StableHlo.unary main_cst_17 main_v67 (broadcastInDim S4 ![] bcast_S_S4 : (⟨S_, .f32⟩ : BufTy).Contents (Elt F) → (⟨S4, .f32⟩ : BufTy).Contents (Elt F)),
    StableHlo.binary main_v67 main_v8 main_v68 (mulf : (⟨S4, .f32⟩ : BufTy).Contents (Elt F) → (⟨S4, .f32⟩ : BufTy).Contents (Elt F) → (⟨S4, .f32⟩ : BufTy).Contents (Elt F)),
    StableHlo.binary main_v68 main_v10 main_v69 (mulf : (⟨S4, .f32⟩ : BufTy).Contents (Elt F) → (⟨S4, .f32⟩ : BufTy).Contents (Elt F) → (⟨S4, .f32⟩ : BufTy).Contents (Elt F)),
    StableHlo.binary main_v66 main_v69 main_v70 (addf : (⟨S4, .f32⟩ : BufTy).Contents (Elt F) → (⟨S4, .f32⟩ : BufTy).Contents (Elt F) → (⟨S4, .f32⟩ : BufTy).Contents (Elt F)),
    StableHlo.nullary main_cst_18 (constant S_ .f32 0x40000000#32),
    StableHlo.unary main_cst_18 main_v71 (broadcastInDim S4 ![] bcast_S_S4 : (⟨S_, .f32⟩ : BufTy).Contents (Elt F) → (⟨S4, .f32⟩ : BufTy).Contents (Elt F)),
    StableHlo.binary main_v71 main_v6 main_v72 (mulf : (⟨S4, .f32⟩ : BufTy).Contents (Elt F) → (⟨S4, .f32⟩ : BufTy).Contents (Elt F) → (⟨S4, .f32⟩ : BufTy).Contents (Elt F)),
    StableHlo.binary main_v72 main_v6 main_v73 (mulf : (⟨S4, .f32⟩ : BufTy).Contents (Elt F) → (⟨S4, .f32⟩ : BufTy).Contents (Elt F) → (⟨S4, .f32⟩ : BufTy).Contents (Elt F)),
    StableHlo.nullary main_cst_19 (constant S_ .f32 0x3F800000#32),
    StableHlo.unary main_cst_19 main_v74 (broadcastInDim S4 ![] bcast_S_S4 : (⟨S_, .f32⟩ : BufTy).Contents (Elt F) → (⟨S4, .f32⟩ : BufTy).Contents (Elt F)),
    StableHlo.binary main_v74 main_v73 main_v75 (subf : (⟨S4, .f32⟩ : BufTy).Contents (Elt F) → (⟨S4, .f32⟩ : BufTy).Contents (Elt F) → (⟨S4, .f32⟩ : BufTy).Contents (Elt F)),
    StableHlo.nullary main_cst_20 (constant S_ .f32 0x40000000#32),
    StableHlo.unary main_cst_20 main_v76 (broadcastInDim S4 ![] bcast_S_S4 : (⟨S_, .f32⟩ : BufTy).Contents (Elt F) → (⟨S4, .f32⟩ : BufTy).Contents (Elt F)),
    StableHlo.binary main_v76 main_v8 main_v77 (mulf : (⟨S4, .f32⟩ : BufTy).Contents (Elt F) → (⟨S4, .f32⟩ : BufTy).Contents (Elt F) → (⟨S4, .f32⟩ : BufTy).Contents (Elt F)),
    StableHlo.binary main_v77 main_v8 main_v78 (mulf : (⟨S4, .f32⟩ : BufTy).Contents (Elt F) → (⟨S4, .f32⟩ : BufTy).Contents (Elt F) → (⟨S4, .f32⟩ : BufTy).Contents (Elt F)),
    StableHlo.binary main_v75 main_v78 main_v79 (subf : (⟨S4, .f32⟩ : BufTy).Contents (Elt F) → (⟨S4, .f32⟩ : BufTy).Contents (Elt F) → (⟨S4, .f32⟩ : BufTy).Contents (Elt F)),
    StableHlo.unary main_v19 main_v80 (broadcastInDim S4x1 ![0] bcast_S4_S4x1_0 : (⟨S4, .f32⟩ : BufTy).Contents (Elt F) → (⟨S4x1, .f32⟩ : BufTy).Contents (Elt F)),
    StableHlo.unary main_v26 main_v81 (broadcastInDim S4x1 ![0] bcast_S4_S4x1_0 : (⟨S4, .f32⟩ : BufTy).Contents (Elt F) → (⟨S4x1, .f32⟩ : BufTy).Contents (Elt F)),
    StableHlo.unary main_v33 main_v82 (broadcastInDim S4x1 ![0] bcast_S4_S4x1_0 : (⟨S4, .f32⟩ : BufTy).Contents (Elt F) → (⟨S4x1, .f32⟩ : BufTy).Contents (Elt F)),
    StableHlo.unary main_v40 main_v83 (broadcastInDim S4x1 ![0] bcast_S4_S4x1_0 : (⟨S4, .f32⟩ : BufTy).Contents (Elt F) → (⟨S4x1, .f32⟩ : BufTy).Contents (Elt F)),
    StableHlo.unary main_v49 main_v84 (broadcastInDim S4x1 ![0] bcast_S4_S4x1_0 : (⟨S4, .f32⟩ : BufTy).Contents (Elt F) → (⟨S4x1, .f32⟩ : BufTy).Contents (Elt F)),
    StableHlo.unary main_v56 main_v85 (broadcastInDim S4x1 ![0] bcast_S4_S4x1_0 : (⟨S4, .f32⟩ : BufTy).Contents (Elt F) → (⟨S4x1, .f32⟩ : BufTy).Contents (Elt F)),
    StableHlo.unary main_v63 main_v86 (broadcastInDim S4x1 ![0] bcast_S4_S4x1_0 : (⟨S4, .f32⟩ : BufTy).Contents (Elt F) → (⟨S4x1, .f32⟩ : BufTy).Contents (Elt F)),
    StableHlo.unary main_v70 main_v87 (broadcastInDim S4x1 ![0] bcast_S4_S4x1_0 : (⟨S4, .f32⟩ : BufTy).Contents (Elt F) → (⟨S4x1, .f32⟩ : BufTy).Contents (Elt F)),
    StableHlo.unary main_v79 main_v88 (broadcastInDim S4x1 ![0] bcast_S4_S4x1_0 : (⟨S4, .f32⟩ : BufTy).Contents (Elt F) → (⟨S4x1, .f32⟩ : BufTy).Contents (Elt F)),
    StableHlo.nary ![main_v80, main_v81, main_v82, main_v83, main_v84, main_v85, main_v86, main_v87, main_v88] main_v89 (fun u => concatenate S4x9 1 [⟨S4x1, u 0⟩, ⟨S4x1, u 1⟩, ⟨S4x1, u 2⟩, ⟨S4x1, u 3⟩, ⟨S4x1, u 4⟩, ⟨S4x1, u 5⟩, ⟨S4x1, u 6⟩, ⟨S4x1, u 7⟩, ⟨S4x1, u 8⟩] concatenates_S4x1_S4x1_S4x1_S4x1_S4x1_S4x1_S4x1_S4x1_S4x1_S4x9_d1),
    StableHlo.reshape main_v89 main_v90 rfl shapeCasts_S4x9_S4x3x3,
    StableHlo.binary main_v90 main_arg4 main_v91 ((fun a b => concatenate S4x3x4 2 [⟨S4x3x3, a⟩, ⟨S4x3x1, b⟩] concatenates_S4x3x3_S4x3x1_S4x3x4_d2) : (⟨S4x3x3, .f32⟩ : BufTy).Contents (Elt F) → (⟨S4x3x1, .f32⟩ : BufTy).Contents (Elt F) → (⟨S4x3x4, .f32⟩ : BufTy).Contents (Elt F)),
    StableHlo.unary main_cst main_v92 (broadcastInDim S4x1x4 ![0, 1, 2] bcast_S1x1x4_S4x1x4_0_1_2 : (⟨S1x1x4, .f32⟩ : BufTy).Contents (Elt F) → (⟨S4x1x4, .f32⟩ : BufTy).Contents (Elt F)),
    StableHlo.binary main_v91 main_v92 main_v93 ((fun a b => concatenate S4x4x4 1 [⟨S4x3x4, a⟩, ⟨S4x1x4, b⟩] concatenates_S4x3x4_S4x1x4_S4x4x4_d1) : (⟨S4x3x4, .f32⟩ : BufTy).Contents (Elt F) → (⟨S4x1x4, .f32⟩ : BufTy).Contents (Elt F) → (⟨S4x4x4, .f32⟩ : BufTy).Contents (Elt F)),
    StableHlo.nullary main_cst_21 (constant S_ .f32 0x3F800000#32),
    StableHlo.unary main_cst_21 main_v94 (broadcastInDim S4x8192x1 ![] bcast_S_S4x8192x1 : (⟨S_, .f32⟩ : BufTy).Contents (Elt F) → (⟨S4x8192x1, .f32⟩ : BufTy).Contents (Elt F)),
    StableHlo.nullary main_cst_22 (constant S_ .f32 0x3F800000#32),
    StableHlo.unary main_cst_22 main_v95 (broadcastInDim S4x8192x1 ![] bcast_S_S4x8192x1 : (⟨S_, .f32⟩ : BufTy).Contents (Elt F) → (⟨S4x8192x1, .f32⟩ : BufTy).Contents (Elt F)) ]

abbrev pre2 : List (HloOp τ sig (Elt F)) :=
  [ StableHlo.binary main_arg1 main_v94 main_v96 ((fun a b => concatenate S4x8192x4 2 [⟨S4x8192x3, a⟩, ⟨S4x8192x1, b⟩] concatenates_S4x8192x3_S4x8192x1_S4x8192x4_d2) : (⟨S4x8192x3, .f32⟩ : BufTy).Contents (Elt F) → (⟨S4x8192x1, .f32⟩ : BufTy).Contents (Elt F) → (⟨S4x8192x4, .f32⟩ : BufTy).Contents (Elt F)),
    StableHlo.binary main_arg0 main_v95 main_v97 ((fun a b => concatenate S4x8192x4 2 [⟨S4x8192x3, a⟩, ⟨S4x8192x1, b⟩] concatenates_S4x8192x3_S4x8192x1_S4x8192x4_d2) : (⟨S4x8192x3, .f32⟩ : BufTy).Contents (Elt F) → (⟨S4x8192x1, .f32⟩ : BufTy).Contents (Elt F) → (⟨S4x8192x4, .f32⟩ : BufTy).Contents (Elt F)),
    StableHlo.binary main_v96 main_v93 main_v98 ((fun l r => Host.dotGeneral dot_S4x8192x4_S4x4x4_S4x8192x4_2_2_1_1_0_0 none l r) : (⟨S4x8192x4, .f32⟩ : BufTy).Contents (Elt F) → (⟨S4x4x4, .f32⟩ : BufTy).Contents (Elt F) → (⟨S4x8192x4, .f32⟩ : BufTy).Contents (Elt F)) ]

abbrev preOps : List (HloOp τ sig (Elt F)) := pre0 ++ (pre1 ++ pre2)

set_option maxRecDepth 4096 in
set_option maxHeartbeats 4000000 in

abbrev postOps : List (HloOp τ sig (Elt F)) :=
  [ StableHlo.binary main_v98 main_v98 main_v99 (mulf : (⟨S4x8192x4, .f32⟩ : BufTy).Contents (Elt F) → (⟨S4x8192x4, .f32⟩ : BufTy).Contents (Elt F) → (⟨S4x8192x4, .f32⟩ : BufTy).Contents (Elt F)),
    StableHlo.nullary main_cst_23 (constant S_ .f32 0x00000000#32),
    StableHlo.binary main_v99 main_cst_23 main_v100 ((fun x v => Host.reduceAdd x v reducesTo_S4x8192x4_S4x8192_d2 h_S_) : (⟨S4x8192x4, .f32⟩ : BufTy).Contents (Elt F) → (⟨S_, .f32⟩ : BufTy).Contents (Elt F) → (⟨S4x8192, .f32⟩ : BufTy).Contents (Elt F)),
    StableHlo.binary main_v97 main_v97 main_v101 (mulf : (⟨S4x8192x4, .f32⟩ : BufTy).Contents (Elt F) → (⟨S4x8192x4, .f32⟩ : BufTy).Contents (Elt F) → (⟨S4x8192x4, .f32⟩ : BufTy).Contents (Elt F)),
    StableHlo.nullary main_cst_24 (constant S_ .f32 0x00000000#32),
    StableHlo.binary main_v101 main_cst_24 main_v102 ((fun x v => Host.reduceAdd x v reducesTo_S4x8192x4_S4x8192_d2 h_S_) : (⟨S4x8192x4, .f32⟩ : BufTy).Contents (Elt F) → (⟨S_, .f32⟩ : BufTy).Contents (Elt F) → (⟨S4x8192, .f32⟩ : BufTy).Contents (Elt F)),
    StableHlo.unary main_v100 main_v103 (broadcastInDim S4x8192x1 ![0, 1] bcast_S4x8192_S4x8192x1_0_1 : (⟨S4x8192, .f32⟩ : BufTy).Contents (Elt F) → (⟨S4x8192x1, .f32⟩ : BufTy).Contents (Elt F)),
    StableHlo.unary main_v102 main_v104 (broadcastInDim S4x1x8192 ![0, 2] bcast_S4x8192_S4x1x8192_0_2 : (⟨S4x8192, .f32⟩ : BufTy).Contents (Elt F) → (⟨S4x1x8192, .f32⟩ : BufTy).Contents (Elt F)),
    StableHlo.unary main_v103 main_v105 (broadcastInDim S4x8192x8192 ![0, 1, 2] bcast_S4x8192x1_S4x8192x8192_0_1_2 : (⟨S4x8192x1, .f32⟩ : BufTy).Contents (Elt F) → (⟨S4x8192x8192, .f32⟩ : BufTy).Contents (Elt F)),
    StableHlo.unary main_v104 main_v106 (broadcastInDim S4x8192x8192 ![0, 1, 2] bcast_S4x1x8192_S4x8192x8192_0_1_2 : (⟨S4x1x8192, .f32⟩ : BufTy).Contents (Elt F) → (⟨S4x8192x8192, .f32⟩ : BufTy).Contents (Elt F)),
    StableHlo.binary main_v105 main_v106 main_v107 (addf : (⟨S4x8192x8192, .f32⟩ : BufTy).Contents (Elt F) → (⟨S4x8192x8192, .f32⟩ : BufTy).Contents (Elt F) → (⟨S4x8192x8192, .f32⟩ : BufTy).Contents (Elt F)),
    StableHlo.unary main_v97 main_v108 ((transpose S4x4x8192 [0, 2, 1] · transposes_S4x8192x4_S4x4x8192_0_2_1) : (⟨S4x8192x4, .f32⟩ : BufTy).Contents (Elt F) → (⟨S4x4x8192, .f32⟩ : BufTy).Contents (Elt F)),
    StableHlo.binary main_v98 main_v108 main_v109 ((fun l r => Host.dotGeneral dot_S4x8192x4_S4x4x8192_S4x8192x8192_2_1_1_2_0_0 none l r) : (⟨S4x8192x4, .f32⟩ : BufTy).Contents (Elt F) → (⟨S4x4x8192, .f32⟩ : BufTy).Contents (Elt F) → (⟨S4x8192x8192, .f32⟩ : BufTy).Contents (Elt F)),
    StableHlo.nullary main_cst_25 (constant S_ .f32 0x40000000#32),
    StableHlo.unary main_cst_25 main_v110 (broadcastInDim S4x8192x8192 ![] bcast_S_S4x8192x8192 : (⟨S_, .f32⟩ : BufTy).Contents (Elt F) → (⟨S4x8192x8192, .f32⟩ : BufTy).Contents (Elt F)),
    StableHlo.binary main_v110 main_v109 main_v111 (mulf : (⟨S4x8192x8192, .f32⟩ : BufTy).Contents (Elt F) → (⟨S4x8192x8192, .f32⟩ : BufTy).Contents (Elt F) → (⟨S4x8192x8192, .f32⟩ : BufTy).Contents (Elt F)),
    StableHlo.binary main_v107 main_v111 main_v112 (subf : (⟨S4x8192x8192, .f32⟩ : BufTy).Contents (Elt F) → (⟨S4x8192x8192, .f32⟩ : BufTy).Contents (Elt F) → (⟨S4x8192x8192, .f32⟩ : BufTy).Contents (Elt F)),
    StableHlo.nullary main_cst_26 (constant S_ .f32 0x00000000#32),
    StableHlo.TRef.unary (.of main_cst_26 : StableHlo.TRef sig ⟨S_, .f32⟩) (.of main_call1_v0 : StableHlo.TRef sig ⟨S_, .f32⟩) id,
    StableHlo.TRef.unary (.of main_call1_v0 : StableHlo.TRef sig ⟨S_, .f32⟩) (.of main_call1_v1 : StableHlo.TRef sig ⟨S4x8192x8192, .f32⟩) (broadcastInDim S4x8192x8192 ![] bcast_S_S4x8192x8192),
    StableHlo.TRef.binary (.of main_call1_v1 : StableHlo.TRef sig ⟨S4x8192x8192, .f32⟩) (.of main_v112 : StableHlo.TRef sig ⟨S4x8192x8192, .f32⟩) (.of main_v113 : StableHlo.TRef sig ⟨S4x8192x8192, .f32⟩) maximumf,
    StableHlo.unary main_v113 main_v114 (Host.sqrt : (⟨S4x8192x8192, .f32⟩ : BufTy).Contents (Elt F) → (⟨S4x8192x8192, .f32⟩ : BufTy).Contents (Elt F)),
    StableHlo.nullary main_cst_27 (constant S_ .f32 0x7F800000#32),
    StableHlo.binary main_v114 main_cst_27 main_v115 ((fun x v => Host.reduce FloatOps.minimumf x v reducesTo_S4x8192x8192_S4x8192_d2 h_S_) : (⟨S4x8192x8192, .f32⟩ : BufTy).Contents (Elt F) → (⟨S_, .f32⟩ : BufTy).Contents (Elt F) → (⟨S4x8192, .f32⟩ : BufTy).Contents (Elt F)),
    StableHlo.nullary main_cst_28 (constant S_ .f32 0x00000000#32),
    StableHlo.binary main_v115 main_cst_28 main_v116 ((fun x v => Host.reduceAdd x v reducesTo_S4x8192_S4_d1 h_S_) : (⟨S4x8192, .f32⟩ : BufTy).Contents (Elt F) → (⟨S_, .f32⟩ : BufTy).Contents (Elt F) → (⟨S4, .f32⟩ : BufTy).Contents (Elt F)),
    StableHlo.nullary main_cst_29 (constant S_ .f32 0x46000000#32),
    StableHlo.unary main_cst_29 main_v117 (broadcastInDim S4 ![] bcast_S_S4 : (⟨S_, .f32⟩ : BufTy).Contents (Elt F) → (⟨S4, .f32⟩ : BufTy).Contents (Elt F)),
    StableHlo.binary main_v116 main_v117 main_v118 (Host.divf : (⟨S4, .f32⟩ : BufTy).Contents (Elt F) → (⟨S4, .f32⟩ : BufTy).Contents (Elt F) → (⟨S4, .f32⟩ : BufTy).Contents (Elt F)),
    StableHlo.nullary main_cst_30 (constant S_ .f32 0x7F800000#32),
    StableHlo.binary main_v114 main_cst_30 main_v119 ((fun x v => Host.reduce FloatOps.minimumf x v reducesTo_S4x8192x8192_S4x8192_d1 h_S_) : (⟨S4x8192x8192, .f32⟩ : BufTy).Contents (Elt F) → (⟨S_, .f32⟩ : BufTy).Contents (Elt F) → (⟨S4x8192, .f32⟩ : BufTy).Contents (Elt F)),
    StableHlo.nullary main_cst_31 (constant S_ .f32 0x00000000#32),
    StableHlo.binary main_v119 main_cst_31 main_v120 ((fun x v => Host.reduceAdd x v reducesTo_S4x8192_S4_d1 h_S_) : (⟨S4x8192, .f32⟩ : BufTy).Contents (Elt F) → (⟨S_, .f32⟩ : BufTy).Contents (Elt F) → (⟨S4, .f32⟩ : BufTy).Contents (Elt F)),
    StableHlo.nullary main_cst_32 (constant S_ .f32 0x46000000#32),
    StableHlo.unary main_cst_32 main_v121 (broadcastInDim S4 ![] bcast_S_S4 : (⟨S_, .f32⟩ : BufTy).Contents (Elt F) → (⟨S4, .f32⟩ : BufTy).Contents (Elt F)),
    StableHlo.binary main_v120 main_v121 main_v122 (Host.divf : (⟨S4, .f32⟩ : BufTy).Contents (Elt F) → (⟨S4, .f32⟩ : BufTy).Contents (Elt F) → (⟨S4, .f32⟩ : BufTy).Contents (Elt F)),
    StableHlo.binary main_v118 main_v122 main_v123 (addf : (⟨S4, .f32⟩ : BufTy).Contents (Elt F) → (⟨S4, .f32⟩ : BufTy).Contents (Elt F) → (⟨S4, .f32⟩ : BufTy).Contents (Elt F)),
    StableHlo.binary main_arg2 main_v123 main_v124 (mulf : (⟨S4, .f32⟩ : BufTy).Contents (Elt F) → (⟨S4, .f32⟩ : BufTy).Contents (Elt F) → (⟨S4, .f32⟩ : BufTy).Contents (Elt F)),
    StableHlo.nullary main_cst_33 (constant S_ .f32 0x00000000#32),
    StableHlo.binary main_v124 main_cst_33 main_v125 ((fun x v => Host.reduceAdd x v reducesTo_S4_S_d0 h_S_) : (⟨S4, .f32⟩ : BufTy).Contents (Elt F) → (⟨S_, .f32⟩ : BufTy).Contents (Elt F) → (⟨S_, .f32⟩ : BufTy).Contents (Elt F)) ]

theorem part0_eq (c : Dev nD) : main_part0 (F := F) c = StableHlo.seq pre0 := rfl
theorem part1_eq (c : Dev nD) : main_part1 (F := F) c = StableHlo.seq pre1 := rfl
theorem part2_eq (c : Dev nD) : main_part2 (F := F) c = StableHlo.seq (pre2 ++ postOps) := rfl

theorem main_eq (c : Dev nD) : main (F := F) c = StableHlo.seq (preOps ++ postOps) := by
  have e : (preOps ++ postOps : List (HloOp τ sig (Elt F))) = pre0 ++ (pre1 ++ (pre2 ++ postOps)) := by
    show (pre0 ++ (pre1 ++ pre2)) ++ postOps = _
    rw [List.append_assoc, List.append_assoc]
  rw [e, StableHlo.seq_append, StableHlo.seq_append, ← part0_eq c, ← part1_eq c, ← part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem pre0_sub : (pre0 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.unary_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub ..⟩
theorem pre1_sub : (pre1 : List (HloOp τ sig (Elt F))).Forall fun op => op.bufs ⊆ StableHlo.tcRefs τ sig :=
  ⟨StableHlo.binary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.nary_bufs_sub .., StableHlo.reshape_bufs_sub .., StableHlo.binary_bufs_sub .., StableHlo.unary_bufs_sub .., StableHlo.binary_bufs_sub .., StableHlo.nullary_bufs_sub .., StableHlo.unary_bufs_sub .., StableHlo.nullary_bufs_sub .., StableHlo.unary_bufs_sub ..⟩
theorem pre2_sub : (pre2 : List (HloOp τ sig (Elt F))).Forall fun op => op.bufs ⊆ StableHlo.tcRefs τ sig :=
  ⟨StableHlo.binary_bufs_sub .., StableHlo.binary_bufs_sub .., StableHlo.binary_bufs_sub ..⟩
theorem preOps_sub : (preOps : List (HloOp τ sig (Elt F))).Forall fun op => op.bufs ⊆ StableHlo.tcRefs τ sig :=
  List.forall_append.2 ⟨pre0_sub, List.forall_append.2 ⟨pre1_sub, pre2_sub⟩⟩
theorem postOps_sub : (postOps : List (HloOp τ sig (Elt F))).Forall fun op => op.bufs ⊆ StableHlo.tcRefs τ sig :=
  ⟨StableHlo.binary_bufs_sub .., StableHlo.nullary_bufs_sub .., StableHlo.binary_bufs_sub .., StableHlo.binary_bufs_sub .., StableHlo.nullary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.unary_bufs_sub .., StableHlo.binary_bufs_sub .., StableHlo.unary_bufs_sub .., StableHlo.nullary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub .., StableHlo.binary_bufs_sub .., StableHlo.nullary_bufs_sub .., StableHlo.binary_bufs_sub .., StableHlo.nullary_bufs_sub .., StableHlo.unary_bufs_sub .., StableHlo.binary_bufs_sub .., StableHlo.binary_bufs_sub .., StableHlo.binary_bufs_sub .., StableHlo.nullary_bufs_sub .., StableHlo.binary_bufs_sub ..⟩

theorem ops_sub : (preOps ++ postOps : List (HloOp τ sig (Elt F))).Forall fun op => op.bufs ⊆ StableHlo.tcRefs τ sig :=
  List.forall_append.2 ⟨preOps_sub, postOps_sub⟩

theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = StableHlo.after (preOps ++ postOps) (StableHlo.launchContents m c) (Proc.devRef .tc b) :=
  StableHlo.run_seq scopedRefs_eq scopedSems_eq defs main (fun _ => preOps ++ postOps) main_eq (fun _ => ops_sub) m ρ

end Cert.ReferenceIdeal.RefRun

end
-- ==== Proof.RefDist.lean ====
import proofs.«129703_j21474836480057_1_alg».proof.Proof.Gen.ReferenceIdeal
import proofs.«129703_j21474836480057_1_alg».proof.Proof.Spec
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

open scoped BigOperators

noncomputable section

namespace Cert.ReferenceIdeal.RefValue

open Cert.ReferenceIdeal Cert.ReferenceIdeal.Gen Idealize.ShloMosaic Idealize.ShloMosaic.ValueIdx

def pts (v : Vec Ideal S4x8192x4 .f32) : Cert.Spec.Pts := fun p a k => v (ix3 p a k)

def sqT (x : FVec Ideal S4x8192x4 .f32) : FVec Ideal S4x8192 .f32 :=
  Host.reduceAdd (mulf x x) (constant (F := Ideal) S_ .f32 0x00000000#32) reducesTo_S4x8192x4_S4x8192_d2 h_S_

theorem lift_coord (h : S4x8192x4.Reduces [2] S4x8192) (p : Fin 4) (a : Fin 8192) (k : Fin 4) :
    h.lift (ix2 p a) k = ix3 p a k := by
  funext c; apply Fin.ext
  fin_cases c <;> rfl

theorem sqT_apply (x : FVec Ideal S4x8192x4 .f32) (p : Fin 4) (a : Fin 8192) :
    sqT x (ix2 p a) = Cert.Spec.sq (pts x) p a := by
  unfold sqT Cert.Spec.sq pts
  rw [hostReduceAdd_apply, Ideal.hostReduceAdd_single _ (by decide : S4x8192x4.Reduces [2] S4x8192)]
  show Ideal.ofBits .f32 0x00000000#32 + _ = _
  rw [Ideal.ofBits_zero_f32, zero_add]
  exact Finset.sum_congr rfl fun k _ => congrArg (fun i => x i * x i) (lift_coord _ p a k)

abbrev D2 : DotDims S4x8192x4 S4x4x8192 S4x8192x8192 := dot_S4x8192x4_S4x4x8192_S4x8192x8192_2_1_1_2_0_0

theorem lhs_D2_0 (j : S4x8192x8192.Idx) (k : D2.contr.Idx) : (D2.lhsIdx j k 0).val = (j 0).val := rfl
theorem lhs_D2_1 (j : S4x8192x8192.Idx) (k : D2.contr.Idx) : (D2.lhsIdx j k 1).val = (j 1).val := rfl
theorem lhs_D2_2 (j : S4x8192x8192.Idx) (k : D2.contr.Idx) : (D2.lhsIdx j k 2).val = (k ⟨0, by decide⟩).val := rfl
theorem rhs_D2_0 (j : S4x8192x8192.Idx) (k : D2.contr.Idx) : (D2.rhsIdx j k 0).val = (j 0).val := rfl
theorem rhs_D2_1 (j : S4x8192x8192.Idx) (k : D2.contr.Idx) : (D2.rhsIdx j k 1).val = (k ⟨0, by decide⟩).val := rfl
theorem rhs_D2_2 (j : S4x8192x8192.Idx) (k : D2.contr.Idx) : (D2.rhsIdx j k 2).val = (j 2).val := rfl

def crossT (x y : FVec Ideal S4x8192x4 .f32) : FVec Ideal S4x8192x8192 .f32 :=
  Host.dotGeneral D2 none x (transpose S4x4x8192 [0, 2, 1] y transposes_S4x8192x4_S4x4x8192_0_2_1)

theorem crossT_apply (x y : FVec Ideal S4x8192x4 .f32) (p : Fin 4) (a b : Fin 8192) :
    crossT x y (ix3 p a b) = Cert.Spec.cross (pts x) (pts y) p a b := by
  unfold crossT Cert.Spec.cross pts
  simp only [Host.dotGeneral]
  rw [Ideal.dotGeneral_apply, ← Equiv.sum_comp (contrEquiv1 D2 4 rfl rfl).symm]
  refine Finset.sum_congr rfl fun k _ => ?_
  have hl : D2.lhsIdx (ix3 p a b) ((contrEquiv1 D2 4 rfl rfl).symm k) = ix3 p a k := by
    funext c; apply Fin.ext
    match c with
    | ⟨0, _⟩ => exact lhs_D2_0 _ _
    | ⟨1, _⟩ => exact lhs_D2_1 _ _
    | ⟨2, _⟩ => exact (lhs_D2_2 _ _).trans (contrEquiv1_symm_val D2 4 rfl rfl k)
  have hr : D2.rhsIdx (ix3 p a b) ((contrEquiv1 D2 4 rfl rfl).symm k) = ix3 p k b := by
    funext c; apply Fin.ext
    match c with
    | ⟨0, _⟩ => exact rhs_D2_0 _ _
    | ⟨1, _⟩ => exact (rhs_D2_1 _ _).trans (contrEquiv1_symm_val D2 4 rfl rfl k)
    | ⟨2, _⟩ => exact rhs_D2_2 _ _
  rw [hl, hr, transpose_ix3_021_apply]

theorem spread_rows (v : FVec Ideal S4x8192 .f32) (p : Fin 4) (a b : Fin 8192) :
    broadcastInDim S4x8192x8192 ![0, 1, 2] bcast_S4x8192x1_S4x8192x8192_0_1_2
      (broadcastInDim S4x8192x1 ![0, 1] bcast_S4x8192_S4x8192x1_0_1 v) (ix3 p a b) = v (ix2 p a) := by
  rw [broadcastInDim_apply _ _ _ _ (ix3 p a (0 : Fin 1)) (fun c => by fin_cases c <;> rfl),
    broadcastInDim_apply _ _ _ _ (ix2 p a) (fun c => by fin_cases c <;> rfl)]

theorem spread_cols (v : FVec Ideal S4x8192 .f32) (p : Fin 4) (a b : Fin 8192) :
    broadcastInDim S4x8192x8192 ![0, 1, 2] bcast_S4x1x8192_S4x8192x8192_0_1_2
      (broadcastInDim S4x1x8192 ![0, 2] bcast_S4x8192_S4x1x8192_0_2 v) (ix3 p a b) = v (ix2 p b) := by
  rw [broadcastInDim_apply _ _ _ _ (ix3 p (0 : Fin 1) b) (fun c => by fin_cases c <;> rfl),
    broadcastInDim_apply _ _ _ _ (ix2 p b) (fun c => by fin_cases c <;> rfl)]

def d2T (x y : FVec Ideal S4x8192x4 .f32) : FVec Ideal S4x8192x8192 .f32 :=
  subf
    (addf
      (broadcastInDim S4x8192x8192 ![0, 1, 2] bcast_S4x8192x1_S4x8192x8192_0_1_2
        (broadcastInDim S4x8192x1 ![0, 1] bcast_S4x8192_S4x8192x1_0_1 (sqT x)))
      (broadcastInDim S4x8192x8192 ![0, 1, 2] bcast_S4x1x8192_S4x8192x8192_0_1_2
        (broadcastInDim S4x1x8192 ![0, 2] bcast_S4x8192_S4x1x8192_0_2 (sqT y))))
    (mulf (broadcastInDim S4x8192x8192 ![] bcast_S_S4x8192x8192 (constant (F := Ideal) S_ .f32 0x40000000#32)) (crossT x y))

theorem d2T_apply (x y : FVec Ideal S4x8192x4 .f32) (p : Fin 4) (a b : Fin 8192) :
    d2T x y (ix3 p a b) = Cert.Spec.d2 (pts x) (pts y) p a b := by
  unfold d2T Cert.Spec.d2
  rw [subf_apply, addf_apply, mulf_apply, spread_rows, spread_cols, broadcastInDim_scalar_apply, sqT_apply, sqT_apply,
    crossT_apply]
  rfl

def distT (x y : FVec Ideal S4x8192x4 .f32) : FVec Ideal S4x8192x8192 .f32 :=
  Host.sqrt (maximumf (broadcastInDim S4x8192x8192 ![] bcast_S_S4x8192x8192 (constant (F := Ideal) S_ .f32 0x00000000#32))
    (d2T x y))

theorem distT_apply (x y : FVec Ideal S4x8192x4 .f32) (p : Fin 4) (a b : Fin 8192) :
    distT x y (ix3 p a b) = Cert.Spec.dist (pts x) (pts y) p a b := by
  unfold distT Cert.Spec.dist
  show Ideal.sqrt (max _ (d2T x y (ix3 p a b))) = _
  rw [broadcastInDim_scalar_apply, d2T_apply, max_comm]
  rfl

end Cert.ReferenceIdeal.RefValue

end
-- ==== Proof.RefValue.lean ====
import proofs.«129703_j21474836480057_1_alg».proof.Proof.RefRun
import proofs.«129703_j21474836480057_1_alg».proof.Proof.RefDist
import proofs.«129703_j21474836480057_1_alg».proof.Proof.LibRowExtrema
import Idealize.ShloMosaic.Lib.Pipeline.Frame
import Mathlib.Data.Finset.Lattice.Fold

open scoped BigOperators

noncomputable section

namespace Cert.ReferenceIdeal.RefValue

open Cert.ReferenceIdeal Cert.ReferenceIdeal.Gen Cert.ReferenceIdeal.RefRun Idealize.ShloMosaic Idealize.ShloMosaic.TcCoe Idealize.SL.Sem
open Idealize.ShloMosaic.StableHlo Idealize.ShloMosaic.ValueIdx

theorem fold_minimumf_top {ι : Type} (s : Finset ι) (f : ι → EReal) :
    s.fold (FloatOps.minimumf (F := Ideal) (φ := .f32)) (⊤ : EReal) f = s.inf f := by
  classical
  induction s using Finset.induction_on with
  | empty => rw [Finset.fold_empty, Finset.inf_empty]
  | insert a s ha ih =>
    rw [Finset.fold_insert ha, Finset.inf_insert, ih]
    rfl

def rowMinT (x y : FVec Ideal S4x8192x4 .f32) : FVec Ideal S4x8192 .f32 :=
  Host.reduce FloatOps.minimumf (distT x y) (constant (F := Ideal) S_ .f32 0x7F800000#32) reducesTo_S4x8192x8192_S4x8192_d2 h_S_

def colMinT (x y : FVec Ideal S4x8192x4 .f32) : FVec Ideal S4x8192 .f32 :=
  Host.reduce FloatOps.minimumf (distT x y) (constant (F := Ideal) S_ .f32 0x7F800000#32) reducesTo_S4x8192x8192_S4x8192_d1 h_S_

theorem lift_col (h : S4x8192x8192.Reduces [2] S4x8192) (p : Fin 4) (a b : Fin 8192) :
    h.lift (ix2 p a) b = ix3 p a b := by
  funext c; apply Fin.ext
  fin_cases c <;> rfl

theorem lift_row (h : S4x8192x8192.Reduces [1] S4x8192) (p : Fin 4) (b a : Fin 8192) :
    h.lift (ix2 p b) a = ix3 p a b := by
  funext c; apply Fin.ext
  fin_cases c <;> rfl

theorem rowMinT_apply (x y : FVec Ideal S4x8192x4 .f32) (p : Fin 4) (a : Fin 8192) :
    rowMinT x y (ix2 p a) = Cert.Spec.rowMin (pts x) (pts y) p a := by
  unfold rowMinT Cert.Spec.rowMin
  rw [Host.reduce_eq_fold_single FloatOps.minimumf _ _ _ (by decide : S4x8192x8192.Reduces [2] S4x8192)]
  show Finset.fold FloatOps.minimumf (FloatOps.ofBits (F := Ideal) .f32 0x7F800000#32) _ _ = _
  rw [Ideal.ofBits_pos_inf_f32, fold_minimumf_top]
  exact congrArg (Finset.univ.inf) (funext fun b => (congrArg (distT x y) (lift_col _ p a b)).trans (distT_apply x y p a b))

theorem colMinT_apply (x y : FVec Ideal S4x8192x4 .f32) (p : Fin 4) (b : Fin 8192) :
    colMinT x y (ix2 p b) = Cert.Spec.colMin (pts x) (pts y) p b := by
  unfold colMinT Cert.Spec.colMin
  rw [Host.reduce_eq_fold_single FloatOps.minimumf _ _ _ (by decide : S4x8192x8192.Reduces [1] S4x8192)]
  show Finset.fold FloatOps.minimumf (FloatOps.ofBits (F := Ideal) .f32 0x7F800000#32) _ _ = _
  rw [Ideal.ofBits_pos_inf_f32, fold_minimumf_top]
  exact congrArg (Finset.univ.inf) (funext fun a => (congrArg (distT x y) (lift_row _ p b a)).trans (distT_apply x y p a b))

theorem lift_point (h : S4x8192.Reduces [1] S4) (p : Fin 4) (a : Fin 8192) : h.lift (ix1 p) a = ix2 p a := by
  funext c; apply Fin.ext
  fin_cases c <;> rfl

theorem sum_idx1 {M : Type} [AddCommMonoid M] {n : Nat} (f : (⟨1, ![n]⟩ : Shape).Idx → M) :
    ∑ i, f i = ∑ a : Fin n, f (ix1 a) :=
  (Equiv.sum_comp (⟨ix1, fun i => i 0, fun _ => rfl, fun i => (eq_ix1 i).symm⟩ : Fin n ≃ (⟨1, ![n]⟩ : Shape).Idx) f).symm

def chamferT (x y : FVec Ideal S4x8192x4 .f32) : FVec Ideal S4 .f32 :=
  addf
    (Host.divf (Host.reduceAdd (rowMinT x y) (constant (F := Ideal) S_ .f32 0x00000000#32) reducesTo_S4x8192_S4_d1 h_S_)
      (broadcastInDim S4 ![] bcast_S_S4 (constant (F := Ideal) S_ .f32 0x46000000#32)))
    (Host.divf (Host.reduceAdd (colMinT x y) (constant (F := Ideal) S_ .f32 0x00000000#32) reducesTo_S4x8192_S4_d1 h_S_)
      (broadcastInDim S4 ![] bcast_S_S4 (constant (F := Ideal) S_ .f32 0x46000000#32)))

theorem sum_points (v : FVec Ideal S4x8192 .f32) (p : Fin 4) :
    Host.reduceAdd v (constant (F := Ideal) S_ .f32 0x00000000#32) reducesTo_S4x8192_S4_d1 h_S_ (ix1 p)
      = ∑ a : Fin 8192, v (ix2 p a) := by
  rw [hostReduceAdd_apply, Ideal.hostReduceAdd_single _ (by decide : S4x8192.Reduces [1] S4)]
  show Ideal.ofBits .f32 0x00000000#32 + _ = _
  rw [Ideal.ofBits_zero_f32, zero_add]
  exact Finset.sum_congr rfl fun a _ => congrArg v (lift_point _ p a)

theorem chamferT_apply (x y : FVec Ideal S4x8192x4 .f32) (p : Fin 4) :
    chamferT x y (ix1 p) = Cert.Spec.chamfer (pts x) (pts y) p := by
  unfold chamferT Cert.Spec.chamfer
  rw [addf_apply, hostDivf_apply, hostDivf_apply, sum_points, sum_points, broadcastInDim_scalar_apply]
  simp only [rowMinT_apply, colMinT_apply]
  rfl

def objT (w : FVec Ideal S4 .f32) (x y : FVec Ideal S4x8192x4 .f32) : FVec Ideal S_ .f32 :=
  Host.reduceAdd (mulf w (chamferT x y)) (constant (F := Ideal) S_ .f32 0x00000000#32) reducesTo_S4_S_d0 h_S_

theorem objT_apply (w : FVec Ideal S4 .f32) (x y : FVec Ideal S4x8192x4 .f32) (j : S_.Idx) :
    objT w x y j = Cert.Spec.objective (fun p => w (ix1 p)) (pts x) (pts y) := by
  unfold objT Cert.Spec.objective
  rw [hostReduceAdd_apply, Ideal.hostReduceAdd_total _ (fun b => b.elim0), sum_idx1]
  show Ideal.ofBits .f32 0x00000000#32 + _ = _
  exact congrArg (Ideal.ofBits .f32 0x00000000#32 + ·)
    (Finset.sum_congr rfl fun p _ => congrArg (w (ix1 p) * ·) (chamferT_apply x y p))

theorem after_split (V : Valuation τ sig (Elt Ideal)) :
    after (preOps ++ postOps) V = after postOps (after (preOps (F := Ideal)) V) :=
  StableHlo.after_append preOps postOps V

set_option maxRecDepth 8192 in
set_option maxHeartbeats 4000000 in

theorem v125_eq (W : Valuation τ sig (Elt Ideal)) :
    after (postOps (F := Ideal)) W (Proc.devRef .tc main_v125)
      = fun _ => Cert.Spec.objective (fun p => W (Proc.devRef .tc main_arg2) (ix1 p))
          (pts (W (Proc.devRef .tc main_v98))) (pts (W (Proc.devRef .tc main_v97))) := by
  have e : after (postOps (F := Ideal)) W (Proc.devRef .tc main_v125)
      = objT (W (Proc.devRef .tc main_arg2)) (W (Proc.devRef .tc main_v98)) (W (Proc.devRef .tc main_v97)) := by
    after_results_simp
    rfl
  rw [e]
  exact funext fun j => objT_apply _ _ _ j

set_option maxRecDepth 8192 in
set_option maxHeartbeats 4000000 in

theorem v93_keep (W : Valuation τ sig (Elt Ideal)) :
    after (postOps (F := Ideal)) W (Proc.devRef .tc main_v93) = W (Proc.devRef .tc main_v93) := by
  after_results_simp

set_option maxRecDepth 8192 in
set_option maxHeartbeats 4000000 in

theorem arg0_keep (W : Valuation τ sig (Elt Ideal)) :
    after (postOps (F := Ideal)) W (Proc.devRef .tc main_arg0) = W (Proc.devRef .tc main_arg0) := by
  after_results_simp
set_option maxRecDepth 8192 in
set_option maxHeartbeats 4000000 in
theorem arg1_keep (W : Valuation τ sig (Elt Ideal)) :
    after (postOps (F := Ideal)) W (Proc.devRef .tc main_arg1) = W (Proc.devRef .tc main_arg1) := by
  after_results_simp
set_option maxRecDepth 8192 in
set_option maxHeartbeats 4000000 in
theorem arg2_keep (W : Valuation τ sig (Elt Ideal)) :
    after (postOps (F := Ideal)) W (Proc.devRef .tc main_arg2) = W (Proc.devRef .tc main_arg2) := by
  after_results_simp
set_option maxRecDepth 8192 in
set_option maxHeartbeats 4000000 in
theorem arg3_keep (W : Valuation τ sig (Elt Ideal)) :
    after (postOps (F := Ideal)) W (Proc.devRef .tc main_arg3) = W (Proc.devRef .tc main_arg3) := by
  after_results_simp
set_option maxRecDepth 8192 in
set_option maxHeartbeats 4000000 in
theorem arg4_keep (W : Valuation τ sig (Elt Ideal)) :
    after (postOps (F := Ideal)) W (Proc.devRef .tc main_arg4) = W (Proc.devRef .tc main_arg4) := by
  after_results_simp

end Cert.ReferenceIdeal.RefValue

end
-- ==== Proof.RefFrame.lean ====
import proofs.«129703_j21474836480057_1_alg».proof.Proof.RefValue

noncomputable section

namespace Cert.ReferenceIdeal.RefValue

open Cert.ReferenceIdeal Cert.ReferenceIdeal.Gen Cert.ReferenceIdeal.RefRun Idealize.ShloMosaic Idealize.ShloMosaic.TcCoe Idealize.SL.Sem
open Idealize.ShloMosaic.StableHlo Idealize.ShloMosaic.ValueIdx

section AnyFloat
variable {F : FTy → Type} [FloatOps F]

set_option maxRecDepth 16384 in
set_option maxHeartbeats 4000000 in

theorem pre_args_keep (V : Valuation τ sig (Elt F)) :
    after (preOps (F := F)) V (Proc.devRef .tc main_arg0) = V (Proc.devRef .tc main_arg0)
    ∧ after (preOps (F := F)) V (Proc.devRef .tc main_arg1) = V (Proc.devRef .tc main_arg1)
    ∧ after (preOps (F := F)) V (Proc.devRef .tc main_arg2) = V (Proc.devRef .tc main_arg2)
    ∧ after (preOps (F := F)) V (Proc.devRef .tc main_arg3) = V (Proc.devRef .tc main_arg3)
    ∧ after (preOps (F := F)) V (Proc.devRef .tc main_arg4) = V (Proc.devRef .tc main_arg4) := by
  simp only [preOps, pre0, pre1, pre2, List.cons_append, List.nil_append]
  after_results_simp
  exact ⟨trivial, trivial, trivial, trivial, trivial⟩

theorem pre_arg0_keep (V : Valuation τ sig (Elt F)) :
    after (preOps (F := F)) V (Proc.devRef .tc main_arg0) = V (Proc.devRef .tc main_arg0) := (pre_args_keep V).1
theorem pre_arg1_keep (V : Valuation τ sig (Elt F)) :
    after (preOps (F := F)) V (Proc.devRef .tc main_arg1) = V (Proc.devRef .tc main_arg1) := (pre_args_keep V).2.1
theorem pre_arg2_keep (V : Valuation τ sig (Elt F)) :
    after (preOps (F := F)) V (Proc.devRef .tc main_arg2) = V (Proc.devRef .tc main_arg2) := (pre_args_keep V).2.2.1
theorem pre_arg3_keep (V : Valuation τ sig (Elt F)) :
    after (preOps (F := F)) V (Proc.devRef .tc main_arg3) = V (Proc.devRef .tc main_arg3) := (pre_args_keep V).2.2.2.1
theorem pre_arg4_keep (V : Valuation τ sig (Elt F)) :
    after (preOps (F := F)) V (Proc.devRef .tc main_arg4) = V (Proc.devRef .tc main_arg4) := (pre_args_keep V).2.2.2.2

set_option maxRecDepth 8192 in
set_option maxHeartbeats 4000000 in

theorem post_keep (W : Valuation τ sig (Elt F)) :
    after (postOps (F := F)) W (Proc.devRef .tc main_arg0) = W (Proc.devRef .tc main_arg0)
    ∧ after (postOps (F := F)) W (Proc.devRef .tc main_arg1) = W (Proc.devRef .tc main_arg1)
    ∧ after (postOps (F := F)) W (Proc.devRef .tc main_arg2) = W (Proc.devRef .tc main_arg2)
    ∧ after (postOps (F := F)) W (Proc.devRef .tc main_arg3) = W (Proc.devRef .tc main_arg3)
    ∧ after (postOps (F := F)) W (Proc.devRef .tc main_arg4) = W (Proc.devRef .tc main_arg4)
    ∧ after (postOps (F := F)) W (Proc.devRef .tc main_v93) = W (Proc.devRef .tc main_v93) := by
  after_results_simp
  exact ⟨trivial, trivial, trivial, trivial, trivial, trivial⟩

theorem arg0_end (m : (ℓ : Loc nD τ sig) → Buf (Elt F) ℓ) (c : Dev nD) :
    after (preOps ++ postOps) (launchContents m c) (Proc.devRef .tc main_arg0) = m ((c.tc : Thread nD τ).loc main_arg0) := by
  rw [StableHlo.after_append, (post_keep _).1, pre_arg0_keep]

theorem arg1_end (m : (ℓ : Loc nD τ sig) → Buf (Elt F) ℓ) (c : Dev nD) :
    after (preOps ++ postOps) (launchContents m c) (Proc.devRef .tc main_arg1) = m ((c.tc : Thread nD τ).loc main_arg1) := by
  rw [StableHlo.after_append, (post_keep _).2.1, pre_arg1_keep]

theorem arg2_end (m : (ℓ : Loc nD τ sig) → Buf (Elt F) ℓ) (c : Dev nD) :
    after (preOps ++ postOps) (launchContents m c) (Proc.devRef .tc main_arg2) = m ((c.tc : Thread nD τ).loc main_arg2) := by
  rw [StableHlo.after_append, (post_keep _).2.2.1, pre_arg2_keep]

theorem arg3_end (m : (ℓ : Loc nD τ sig) → Buf (Elt F) ℓ) (c : Dev nD) :
    after (preOps ++ postOps) (launchContents m c) (Proc.devRef .tc main_arg3) = m ((c.tc : Thread nD τ).loc main_arg3) := by
  rw [StableHlo.after_append, (post_keep _).2.2.2.1, pre_arg3_keep]

theorem arg4_end (m : (ℓ : Loc nD τ sig) → Buf (Elt F) ℓ) (c : Dev nD) :
    after (preOps ++ postOps) (launchContents m c) (Proc.devRef .tc main_arg4) = m ((c.tc : Thread nD τ).loc main_arg4) := by
  rw [StableHlo.after_append, (post_keep _).2.2.2.2.1, pre_arg4_keep]

theorem v93_end (m : (ℓ : Loc nD τ sig) → Buf (Elt F) ℓ) (c : Dev nD) :
    after (preOps ++ postOps) (launchContents m c) (Proc.devRef .tc main_v93)
      = after (preOps (F := F)) (launchContents m c) (Proc.devRef .tc main_v93) := by
  rw [StableHlo.after_append, (post_keep _).2.2.2.2.2]

end AnyFloat

theorem v125_end (m : (ℓ : Loc nD τ sig) → Buf (Elt Ideal) ℓ) (c : Dev nD) :
    after (preOps ++ postOps) (launchContents m c) (Proc.devRef .tc main_v125)
      = fun _ => Cert.Spec.objective (fun p => m ((c.tc : Thread nD τ).loc main_arg2) (ix1 p))
          (pts (after (preOps (F := Ideal)) (launchContents m c) (Proc.devRef .tc main_v98)))
          (pts (after (preOps (F := Ideal)) (launchContents m c) (Proc.devRef .tc main_v97))) := by
  rw [after_split, v125_eq, pre_arg2_keep]

end Cert.ReferenceIdeal.RefValue

end
-- ==== Proof.LibNary9.lean ====
import Idealize.ShloMosaic.Lib.StableHlo.Run

noncomputable section

namespace Idealize.ShloMosaic.StableHlo

variable {τ : Topo} {sig : RefSig} {Val : EltTy → Type}
variable {x0 x1 x2 x3 x4 x5 x6 x7 x8 y : Ref sig .tc}

theorem nary9_result
    (f : ((k : Fin 9) → ((![x0, x1, x2, x3, x4, x5, x6, x7, x8] : Fin 9 → Ref sig .tc) k).ty.Contents Val) → y.ty.Contents Val)
    (hxs hy) (V : Valuation τ sig Val) :
    (nary (τ := τ) ![x0, x1, x2, x3, x4, x5, x6, x7, x8] y f hxs hy).result V (Proc.devRef .tc y)
      = f (Fin.cons (V (Proc.devRef .tc x0)) (Fin.cons (V (Proc.devRef .tc x1)) (Fin.cons (V (Proc.devRef .tc x2))
          (Fin.cons (V (Proc.devRef .tc x3)) (Fin.cons (V (Proc.devRef .tc x4)) (Fin.cons (V (Proc.devRef .tc x5))
          (Fin.cons (V (Proc.devRef .tc x6)) (Fin.cons (V (Proc.devRef .tc x7)) (Fin.cons (V (Proc.devRef .tc x8))
          (fun i => i.elim0)))))))))) := by
  rw [nary_result]; congr 1; funext k; fin_cases k <;> rfl

theorem nary9_result'
    (f : ((k : Fin 9) → ((![x0, x1, x2, x3, x4, x5, x6, x7, x8] : Fin 9 → Ref sig .tc) k).ty.Contents Val) → y.ty.Contents Val)
    (hxs hy) (V : Valuation τ sig Val) :
    (nary (τ := τ) ![x0, x1, x2, x3, x4, x5, x6, x7, x8] y f hxs hy).result V (no_index (Proc.devRef .tc y))
      = f (Fin.cons (V (Proc.devRef .tc x0)) (Fin.cons (V (Proc.devRef .tc x1)) (Fin.cons (V (Proc.devRef .tc x2))
          (Fin.cons (V (Proc.devRef .tc x3)) (Fin.cons (V (Proc.devRef .tc x4)) (Fin.cons (V (Proc.devRef .tc x5))
          (Fin.cons (V (Proc.devRef .tc x6)) (Fin.cons (V (Proc.devRef .tc x7)) (Fin.cons (V (Proc.devRef .tc x8))
          (fun i => i.elim0)))))))))) :=
  nary9_result f hxs hy V

end Idealize.ShloMosaic.StableHlo

end
-- ==== Proof.PrefixAgree.lean ====
import proofs.«129703_j21474836480057_1_alg».proof.Proof.Gen.KernelIdeal.Launch
import proofs.«129703_j21474836480057_1_alg».proof.Proof.RefRun
import proofs.«129703_j21474836480057_1_alg».proof.Proof.LibNary9
import Idealize.ShloMosaic.Lib.StableHlo.Run
import Idealize.ShloMosaic.Lib.Pipeline.Frame
import Idealize.ShloMosaic.PureOps.Ideal

set_option maxRecDepth 16384

noncomputable section

namespace Cert.PrefixAgree

open Idealize.ShloMosaic Idealize.ShloMosaic.TcCoe Idealize.SL.Sem Idealize.ShloMosaic.StableHlo

macro "after_results9" : tactic =>
  `(tactic| (simp (disch := decide) only [after_cons, after_nil,
      nullary_result', unary_result', binary_result', reshape_result', nary9_result',
      nullary_result_ne', unary_result_ne', binary_result_ne', reshape_result_ne', nary_result_ne']))

variable (VK : Valuation Cert.KernelIdeal.τ Cert.KernelIdeal.sig (Elt Ideal)) (VR : Valuation Cert.ReferenceIdeal.τ Cert.ReferenceIdeal.sig (Elt Ideal))

theorem after_cut {τ : Topo} {sig : RefSig} {Val : EltTy → Type} (n : Nat) (l : List (HloOp τ sig Val)) (V : Valuation τ sig Val) :
    after l V = after (l.drop n) (after (l.take n) V) := by
  rw [← after_append, List.take_append_drop]

abbrev AR : Valuation Cert.ReferenceIdeal.τ Cert.ReferenceIdeal.sig (Elt Ideal) :=
  after ((Cert.ReferenceIdeal.RefRun.preOps (F := Ideal)).take 115) VR

abbrev AK : Valuation Cert.KernelIdeal.τ Cert.KernelIdeal.sig (Elt Ideal) :=
  after ((List.flatten [Cert.KernelIdeal.Gen.hostOps0 (F := Ideal), Cert.KernelIdeal.Gen.hostOps0_1, Cert.KernelIdeal.Gen.hostOps0_2]).take 115) VK

macro "after_results9rw" : tactic =>
  `(tactic| (simp only [after_cons, after_nil]
             repeat (first
               | rw [nary9_result]
               | rw [nullary_result] | rw [unary_result] | rw [binary_result] | rw [reshape_result]
               | (rw [nullary_result_ne]; rotate_left; decide)
               | (rw [unary_result_ne]; rotate_left; decide)
               | (rw [binary_result_ne]; rotate_left; decide)
               | (rw [reshape_result_ne]; rotate_left; decide)
               | (rw [nary_result_ne]; rotate_left; decide))))

section Tails
variable {F : FTy → Type} [FloatOps F]

open Cert.ReferenceIdeal Cert.ReferenceIdeal.Gen in

abbrev tailR : List (HloOp Cert.ReferenceIdeal.τ Cert.ReferenceIdeal.sig (Elt F)) :=
  [ StableHlo.nary ![main_v80, main_v81, main_v82, main_v83, main_v84, main_v85, main_v86, main_v87, main_v88] main_v89 (fun u => concatenate S4x9 1 [⟨S4x1, u 0⟩, ⟨S4x1, u 1⟩, ⟨S4x1, u 2⟩, ⟨S4x1, u 3⟩, ⟨S4x1, u 4⟩, ⟨S4x1, u 5⟩, ⟨S4x1, u 6⟩, ⟨S4x1, u 7⟩, ⟨S4x1, u 8⟩] concatenates_S4x1_S4x1_S4x1_S4x1_S4x1_S4x1_S4x1_S4x1_S4x1_S4x9_d1),
    StableHlo.reshape main_v89 main_v90 rfl shapeCasts_S4x9_S4x3x3,
    StableHlo.binary main_v90 main_arg4 main_v91 ((fun a b => concatenate S4x3x4 2 [⟨S4x3x3, a⟩, ⟨S4x3x1, b⟩] concatenates_S4x3x3_S4x3x1_S4x3x4_d2) : (⟨S4x3x3, .f32⟩ : BufTy).Contents (Elt F) → (⟨S4x3x1, .f32⟩ : BufTy).Contents (Elt F) → (⟨S4x3x4, .f32⟩ : BufTy).Contents (Elt F)),
    StableHlo.unary main_cst main_v92 (broadcastInDim S4x1x4 ![0, 1, 2] bcast_S1x1x4_S4x1x4_0_1_2 : (⟨S1x1x4, .f32⟩ : BufTy).Contents (Elt F) → (⟨S4x1x4, .f32⟩ : BufTy).Contents (Elt F)),
    StableHlo.binary main_v91 main_v92 main_v93 ((fun a b => concatenate S4x4x4 1 [⟨S4x3x4, a⟩, ⟨S4x1x4, b⟩] concatenates_S4x3x4_S4x1x4_S4x4x4_d1) : (⟨S4x3x4, .f32⟩ : BufTy).Contents (Elt F) → (⟨S4x1x4, .f32⟩ : BufTy).Contents (Elt F) → (⟨S4x4x4, .f32⟩ : BufTy).Contents (Elt F)),
    StableHlo.nullary main_cst_21 (constant S_ .f32 0x3F800000#32),
    StableHlo.unary main_cst_21 main_v94 (broadcastInDim S4x8192x1 ![] bcast_S_S4x8192x1 : (⟨S_, .f32⟩ : BufTy).Contents (Elt F) → (⟨S4x8192x1, .f32⟩ : BufTy).Contents (Elt F)),
    StableHlo.nullary main_cst_22 (constant S_ .f32 0x3F800000#32),
    StableHlo.unary main_cst_22 main_v95 (broadcastInDim S4x8192x1 ![] bcast_S_S4x8192x1 : (⟨S_, .f32⟩ : BufTy).Contents (Elt F) → (⟨S4x8192x1, .f32⟩ : BufTy).Contents (Elt F)),
    StableHlo.binary main_arg1 main_v94 main_v96 ((fun a b => concatenate S4x8192x4 2 [⟨S4x8192x3, a⟩, ⟨S4x8192x1, b⟩] concatenates_S4x8192x3_S4x8192x1_S4x8192x4_d2) : (⟨S4x8192x3, .f32⟩ : BufTy).Contents (Elt F) → (⟨S4x8192x1, .f32⟩ : BufTy).Contents (Elt F) → (⟨S4x8192x4, .f32⟩ : BufTy).Contents (Elt F)),
    StableHlo.binary main_arg0 main_v95 main_v97 ((fun a b => concatenate S4x8192x4 2 [⟨S4x8192x3, a⟩, ⟨S4x8192x1, b⟩] concatenates_S4x8192x3_S4x8192x1_S4x8192x4_d2) : (⟨S4x8192x3, .f32⟩ : BufTy).Contents (Elt F) → (⟨S4x8192x1, .f32⟩ : BufTy).Contents (Elt F) → (⟨S4x8192x4, .f32⟩ : BufTy).Contents (Elt F)),
    StableHlo.binary main_v96 main_v93 main_v98 ((fun l r => Host.dotGeneral dot_S4x8192x4_S4x4x4_S4x8192x4_2_2_1_1_0_0 none l r) : (⟨S4x8192x4, .f32⟩ : BufTy).Contents (Elt F) → (⟨S4x4x4, .f32⟩ : BufTy).Contents (Elt F) → (⟨S4x8192x4, .f32⟩ : BufTy).Contents (Elt F)) ]

open Cert.KernelIdeal Cert.KernelIdeal.Gen in

abbrev tailK : List (HloOp Cert.KernelIdeal.τ Cert.KernelIdeal.sig (Elt F)) :=
  [ StableHlo.nary ![main_v80, main_v81, main_v82, main_v83, main_v84, main_v85, main_v86, main_v87, main_v88] main_v89 (fun u => concatenate S4x9 1 [⟨S4x1, u 0⟩, ⟨S4x1, u 1⟩, ⟨S4x1, u 2⟩, ⟨S4x1, u 3⟩, ⟨S4x1, u 4⟩, ⟨S4x1, u 5⟩, ⟨S4x1, u 6⟩, ⟨S4x1, u 7⟩, ⟨S4x1, u 8⟩] concatenates_S4x1_S4x1_S4x1_S4x1_S4x1_S4x1_S4x1_S4x1_S4x1_S4x9_d1),
    StableHlo.reshape main_v89 main_v90 rfl shapeCasts_S4x9_S4x3x3,
    StableHlo.binary main_v90 main_arg4 main_v91 ((fun a b => concatenate S4x3x4 2 [⟨S4x3x3, a⟩, ⟨S4x3x1, b⟩] concatenates_S4x3x3_S4x3x1_S4x3x4_d2) : (⟨S4x3x3, .f32⟩ : BufTy).Contents (Elt F) → (⟨S4x3x1, .f32⟩ : BufTy).Contents (Elt F) → (⟨S4x3x4, .f32⟩ : BufTy).Contents (Elt F)),
    StableHlo.unary main_cst main_v92 (broadcastInDim S4x1x4 ![0, 1, 2] bcast_S1x1x4_S4x1x4_0_1_2 : (⟨S1x1x4, .f32⟩ : BufTy).Contents (Elt F) → (⟨S4x1x4, .f32⟩ : BufTy).Contents (Elt F)),
    StableHlo.binary main_v91 main_v92 main_v93 ((fun a b => concatenate S4x4x4 1 [⟨S4x3x4, a⟩, ⟨S4x1x4, b⟩] concatenates_S4x3x4_S4x1x4_S4x4x4_d1) : (⟨S4x3x4, .f32⟩ : BufTy).Contents (Elt F) → (⟨S4x1x4, .f32⟩ : BufTy).Contents (Elt F) → (⟨S4x4x4, .f32⟩ : BufTy).Contents (Elt F)),
    StableHlo.nullary main_cst_21 (constant S_ .f32 0x3F800000#32),
    StableHlo.unary main_cst_21 main_v94 (broadcastInDim S4x8192x1 ![] bcast_S_S4x8192x1 : (⟨S_, .f32⟩ : BufTy).Contents (Elt F) → (⟨S4x8192x1, .f32⟩ : BufTy).Contents (Elt F)),
    StableHlo.nullary main_cst_22 (constant S_ .f32 0x3F800000#32),
    StableHlo.unary main_cst_22 main_v95 (broadcastInDim S4x8192x1 ![] bcast_S_S4x8192x1 : (⟨S_, .f32⟩ : BufTy).Contents (Elt F) → (⟨S4x8192x1, .f32⟩ : BufTy).Contents (Elt F)),
    StableHlo.binary main_arg1 main_v94 main_v96 ((fun a b => concatenate S4x8192x4 2 [⟨S4x8192x3, a⟩, ⟨S4x8192x1, b⟩] concatenates_S4x8192x3_S4x8192x1_S4x8192x4_d2) : (⟨S4x8192x3, .f32⟩ : BufTy).Contents (Elt F) → (⟨S4x8192x1, .f32⟩ : BufTy).Contents (Elt F) → (⟨S4x8192x4, .f32⟩ : BufTy).Contents (Elt F)),
    StableHlo.binary main_arg0 main_v95 main_v97 ((fun a b => concatenate S4x8192x4 2 [⟨S4x8192x3, a⟩, ⟨S4x8192x1, b⟩] concatenates_S4x8192x3_S4x8192x1_S4x8192x4_d2) : (⟨S4x8192x3, .f32⟩ : BufTy).Contents (Elt F) → (⟨S4x8192x1, .f32⟩ : BufTy).Contents (Elt F) → (⟨S4x8192x4, .f32⟩ : BufTy).Contents (Elt F)),
    StableHlo.binary main_v96 main_v93 main_v98 ((fun l r => Host.dotGeneral dot_S4x8192x4_S4x4x4_S4x8192x4_2_2_1_1_0_0 none l r) : (⟨S4x8192x4, .f32⟩ : BufTy).Contents (Elt F) → (⟨S4x4x4, .f32⟩ : BufTy).Contents (Elt F) → (⟨S4x8192x4, .f32⟩ : BufTy).Contents (Elt F)) ]

end Tails

theorem dropR : (Cert.ReferenceIdeal.RefRun.preOps (F := Ideal)).drop 115 = tailR := rfl
theorem dropK : (List.flatten [Cert.KernelIdeal.Gen.hostOps0 (F := Ideal), Cert.KernelIdeal.Gen.hostOps0_1, Cert.KernelIdeal.Gen.hostOps0_2]).drop 115 = tailK := rfl

set_option maxHeartbeats 40000000 in
theorem reads_agree
    (h0 : VR (Proc.devRef .tc Cert.ReferenceIdeal.main_arg0) = VK (Proc.devRef .tc Cert.KernelIdeal.main_arg0))
    (h1 : VR (Proc.devRef .tc Cert.ReferenceIdeal.main_arg1) = VK (Proc.devRef .tc Cert.KernelIdeal.main_arg1))
    (h3 : VR (Proc.devRef .tc Cert.ReferenceIdeal.main_arg3) = VK (Proc.devRef .tc Cert.KernelIdeal.main_arg3))
    (h4 : VR (Proc.devRef .tc Cert.ReferenceIdeal.main_arg4) = VK (Proc.devRef .tc Cert.KernelIdeal.main_arg4)) :
    AR VR (Proc.devRef .tc Cert.ReferenceIdeal.main_v80) = AK VK (Proc.devRef .tc Cert.KernelIdeal.main_v80)
    ∧ AR VR (Proc.devRef .tc Cert.ReferenceIdeal.main_v81) = AK VK (Proc.devRef .tc Cert.KernelIdeal.main_v81)
    ∧ AR VR (Proc.devRef .tc Cert.ReferenceIdeal.main_v82) = AK VK (Proc.devRef .tc Cert.KernelIdeal.main_v82)
    ∧ AR VR (Proc.devRef .tc Cert.ReferenceIdeal.main_v83) = AK VK (Proc.devRef .tc Cert.KernelIdeal.main_v83)
    ∧ AR VR (Proc.devRef .tc Cert.ReferenceIdeal.main_v84) = AK VK (Proc.devRef .tc Cert.KernelIdeal.main_v84)
    ∧ AR VR (Proc.devRef .tc Cert.ReferenceIdeal.main_v85) = AK VK (Proc.devRef .tc Cert.KernelIdeal.main_v85)
    ∧ AR VR (Proc.devRef .tc Cert.ReferenceIdeal.main_v86) = AK VK (Proc.devRef .tc Cert.KernelIdeal.main_v86)
    ∧ AR VR (Proc.devRef .tc Cert.ReferenceIdeal.main_v87) = AK VK (Proc.devRef .tc Cert.KernelIdeal.main_v87)
    ∧ AR VR (Proc.devRef .tc Cert.ReferenceIdeal.main_v88) = AK VK (Proc.devRef .tc Cert.KernelIdeal.main_v88)
    ∧ AR VR (Proc.devRef .tc Cert.ReferenceIdeal.main_arg4) = AK VK (Proc.devRef .tc Cert.KernelIdeal.main_arg4)
    ∧ AR VR (Proc.devRef .tc Cert.ReferenceIdeal.main_cst) = AK VK (Proc.devRef .tc Cert.KernelIdeal.main_cst)
    ∧ AR VR (Proc.devRef .tc Cert.ReferenceIdeal.main_arg1) = AK VK (Proc.devRef .tc Cert.KernelIdeal.main_arg1)
    ∧ AR VR (Proc.devRef .tc Cert.ReferenceIdeal.main_arg0) = AK VK (Proc.devRef .tc Cert.KernelIdeal.main_arg0) := by
  unfold AR AK
  simp only [Cert.ReferenceIdeal.RefRun.preOps, Cert.ReferenceIdeal.RefRun.pre0, Cert.ReferenceIdeal.RefRun.pre1, Cert.ReferenceIdeal.RefRun.pre2,
    Cert.KernelIdeal.Gen.hostOps0, Cert.KernelIdeal.Gen.hostOps0_1, Cert.KernelIdeal.Gen.hostOps0_2,
    List.flatten_cons, List.flatten_nil, List.append_nil, List.cons_append, List.nil_append,
    List.take_succ_cons, List.take_zero, List.drop_succ_cons, List.drop_zero]
  after_results9
  rw [h0, h1, h3, h4]
  exact ⟨rfl, rfl, rfl, rfl, rfl, rfl, rfl, rfl, rfl, rfl, rfl, rfl, rfl⟩

set_option maxHeartbeats 40000000 in

theorem v93_agree
    (h0 : VR (Proc.devRef .tc Cert.ReferenceIdeal.main_arg0) = VK (Proc.devRef .tc Cert.KernelIdeal.main_arg0))
    (h1 : VR (Proc.devRef .tc Cert.ReferenceIdeal.main_arg1) = VK (Proc.devRef .tc Cert.KernelIdeal.main_arg1))
    (h3 : VR (Proc.devRef .tc Cert.ReferenceIdeal.main_arg3) = VK (Proc.devRef .tc Cert.KernelIdeal.main_arg3))
    (h4 : VR (Proc.devRef .tc Cert.ReferenceIdeal.main_arg4) = VK (Proc.devRef .tc Cert.KernelIdeal.main_arg4)) :
    after (Cert.ReferenceIdeal.RefRun.preOps (F := Ideal)) VR (Proc.devRef .tc Cert.ReferenceIdeal.main_v93)
      = after (List.flatten [Cert.KernelIdeal.Gen.hostOps0 (F := Ideal), Cert.KernelIdeal.Gen.hostOps0_1, Cert.KernelIdeal.Gen.hostOps0_2]) VK (Proc.devRef .tc Cert.KernelIdeal.main_v93) := by
  rw [after_cut 115 (Cert.ReferenceIdeal.RefRun.preOps (F := Ideal)) VR, after_cut 115 (List.flatten [Cert.KernelIdeal.Gen.hostOps0 (F := Ideal), Cert.KernelIdeal.Gen.hostOps0_1, Cert.KernelIdeal.Gen.hostOps0_2]) VK, dropR, dropK]
  obtain ⟨e_v80, e_v81, e_v82, e_v83, e_v84, e_v85, e_v86, e_v87, e_v88, e_arg4, e_cst, e_arg1, e_arg0⟩ := reads_agree VK VR h0 h1 h3 h4
  unfold AR AK at e_v80 e_v81 e_v82 e_v83 e_v84 e_v85 e_v86 e_v87 e_v88 e_arg4 e_cst e_arg1 e_arg0
  generalize after ((Cert.ReferenceIdeal.RefRun.preOps (F := Ideal)).take 115) VR = aR at *
  generalize after ((List.flatten [Cert.KernelIdeal.Gen.hostOps0 (F := Ideal), Cert.KernelIdeal.Gen.hostOps0_1, Cert.KernelIdeal.Gen.hostOps0_2]).take 115) VK = aK at *
  after_results9rw
  rw [e_v80, e_v81, e_v82, e_v83, e_v84, e_v85, e_v86, e_v87, e_v88, e_arg4, e_cst]
  try rfl

set_option maxHeartbeats 40000000 in

theorem v97_agree
    (h0 : VR (Proc.devRef .tc Cert.ReferenceIdeal.main_arg0) = VK (Proc.devRef .tc Cert.KernelIdeal.main_arg0))
    (h1 : VR (Proc.devRef .tc Cert.ReferenceIdeal.main_arg1) = VK (Proc.devRef .tc Cert.KernelIdeal.main_arg1))
    (h3 : VR (Proc.devRef .tc Cert.ReferenceIdeal.main_arg3) = VK (Proc.devRef .tc Cert.KernelIdeal.main_arg3))
    (h4 : VR (Proc.devRef .tc Cert.ReferenceIdeal.main_arg4) = VK (Proc.devRef .tc Cert.KernelIdeal.main_arg4)) :
    after (Cert.ReferenceIdeal.RefRun.preOps (F := Ideal)) VR (Proc.devRef .tc Cert.ReferenceIdeal.main_v97)
      = after (List.flatten [Cert.KernelIdeal.Gen.hostOps0 (F := Ideal), Cert.KernelIdeal.Gen.hostOps0_1, Cert.KernelIdeal.Gen.hostOps0_2]) VK (Proc.devRef .tc Cert.KernelIdeal.main_v97) := by
  rw [after_cut 115 (Cert.ReferenceIdeal.RefRun.preOps (F := Ideal)) VR, after_cut 115 (List.flatten [Cert.KernelIdeal.Gen.hostOps0 (F := Ideal), Cert.KernelIdeal.Gen.hostOps0_1, Cert.KernelIdeal.Gen.hostOps0_2]) VK, dropR, dropK]
  obtain ⟨e_v80, e_v81, e_v82, e_v83, e_v84, e_v85, e_v86, e_v87, e_v88, e_arg4, e_cst, e_arg1, e_arg0⟩ := reads_agree VK VR h0 h1 h3 h4
  unfold AR AK at e_v80 e_v81 e_v82 e_v83 e_v84 e_v85 e_v86 e_v87 e_v88 e_arg4 e_cst e_arg1 e_arg0
  generalize after ((Cert.ReferenceIdeal.RefRun.preOps (F := Ideal)).take 115) VR = aR at *
  generalize after ((List.flatten [Cert.KernelIdeal.Gen.hostOps0 (F := Ideal), Cert.KernelIdeal.Gen.hostOps0_1, Cert.KernelIdeal.Gen.hostOps0_2]).take 115) VK = aK at *
  after_results9rw
  rw [e_arg0]
  try rfl

set_option maxHeartbeats 40000000 in

theorem v98_agree
    (h0 : VR (Proc.devRef .tc Cert.ReferenceIdeal.main_arg0) = VK (Proc.devRef .tc Cert.KernelIdeal.main_arg0))
    (h1 : VR (Proc.devRef .tc Cert.ReferenceIdeal.main_arg1) = VK (Proc.devRef .tc Cert.KernelIdeal.main_arg1))
    (h3 : VR (Proc.devRef .tc Cert.ReferenceIdeal.main_arg3) = VK (Proc.devRef .tc Cert.KernelIdeal.main_arg3))
    (h4 : VR (Proc.devRef .tc Cert.ReferenceIdeal.main_arg4) = VK (Proc.devRef .tc Cert.KernelIdeal.main_arg4)) :
    after (Cert.ReferenceIdeal.RefRun.preOps (F := Ideal)) VR (Proc.devRef .tc Cert.ReferenceIdeal.main_v98)
      = after (List.flatten [Cert.KernelIdeal.Gen.hostOps0 (F := Ideal), Cert.KernelIdeal.Gen.hostOps0_1, Cert.KernelIdeal.Gen.hostOps0_2]) VK (Proc.devRef .tc Cert.KernelIdeal.main_v98) := by
  rw [after_cut 115 (Cert.ReferenceIdeal.RefRun.preOps (F := Ideal)) VR, after_cut 115 (List.flatten [Cert.KernelIdeal.Gen.hostOps0 (F := Ideal), Cert.KernelIdeal.Gen.hostOps0_1, Cert.KernelIdeal.Gen.hostOps0_2]) VK, dropR, dropK]
  obtain ⟨e_v80, e_v81, e_v82, e_v83, e_v84, e_v85, e_v86, e_v87, e_v88, e_arg4, e_cst, e_arg1, e_arg0⟩ := reads_agree VK VR h0 h1 h3 h4
  unfold AR AK at e_v80 e_v81 e_v82 e_v83 e_v84 e_v85 e_v86 e_v87 e_v88 e_arg4 e_cst e_arg1 e_arg0
  generalize after ((Cert.ReferenceIdeal.RefRun.preOps (F := Ideal)).take 115) VR = aR at *
  generalize after ((List.flatten [Cert.KernelIdeal.Gen.hostOps0 (F := Ideal), Cert.KernelIdeal.Gen.hostOps0_1, Cert.KernelIdeal.Gen.hostOps0_2]).take 115) VK = aK at *
  after_results9rw
  rw [e_arg1, e_v80, e_v81, e_v82, e_v83, e_v84, e_v85, e_v86, e_v87, e_v88, e_arg4, e_cst]
  try rfl

end Cert.PrefixAgree

end
-- ==== Proof.lean ====
/-
  The chamfer objective, tile by tile against all at once: a minimum and a sum taken tile by tile are the minimum and the
  sum, so both programs compute `Cert.Spec.objective` of the same two clouds. The idealized program is the printed
  program's own text, so the one frame proof, which holds at every float instance, serves both.
-/
import proofs.«129703_j21474836480057_1_alg».proof.Defs
import proofs.«129703_j21474836480057_1_alg».proof.Proof.Gen.Kernel
import proofs.«129703_j21474836480057_1_alg».proof.Proof.Gen.KernelIdeal
import proofs.«129703_j21474836480057_1_alg».proof.Proof.Gen.ReferenceIdeal
import proofs.«129703_j21474836480057_1_alg».proof.Proof.Gen.Pre_finite_inputs
import proofs.«129703_j21474836480057_1_alg».proof.Proof.KI.Value
import proofs.«129703_j21474836480057_1_alg».proof.Proof.RefValue
import proofs.«129703_j21474836480057_1_alg».proof.Proof.RefFrame
import proofs.«129703_j21474836480057_1_alg».proof.Proof.PrefixAgree
import Idealize.ShloMosaic.Adequacy
import Idealize.ShloMosaic.Init

noncomputable section

namespace Cert.Proof

open Idealize.ShloMosaic Idealize.SL.Sem

-- The two printed programs are one text: their body tables agree label by label, and everything else unfolds alike.
theorem defs_eq {F : FTy → Type} [FloatOps F] : Cert.Kernel.defs (F := F) = Cert.KernelIdeal.defs (F := F) := by
  unfold Cert.Kernel.defs Cert.KernelIdeal.defs Cert.Kernel.defs₀ Cert.KernelIdeal.defs₀
  congr 2; funext l a
  match l, a with
  | 0, (t, s) => rfl
  | ⟨_ + 1, h⟩, _ => exact absurd h (by omega)

theorem frame_k : Cert.frame_Kernel (hKernel := Cert.Kernel.Gen.facts) (hPre_finite_inputs := Cert.Pre_finite_inputs.Gen.facts) :=
  fun m ρ _ => by
    have h := Cert.KernelIdeal.Gen.frame m ρ
    rwa [← defs_eq] at h

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono
    (fun _ h c => ⟨(h c _).trans (Cert.ReferenceIdeal.RefValue.arg0_end m c), (h c _).trans (Cert.ReferenceIdeal.RefValue.arg1_end m c),
      (h c _).trans (Cert.ReferenceIdeal.RefValue.arg2_end m c), (h c _).trans (Cert.ReferenceIdeal.RefValue.arg3_end m c),
      (h c _).trans (Cert.ReferenceIdeal.RefValue.arg4_end m c)⟩)
    (Cert.ReferenceIdeal.RefRun.run (F := Ideal) m ρ)

theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨_, _, Cert.KernelIdeal.Gen.valueRun m ρ, ?_⟩
  refine (θ_run Cert.ReferenceIdeal.defs _ _).mono (fun _ h c => ?_) (Cert.ReferenceIdeal.RefRun.run (F := Ideal) m' ρ')
  obtain ⟨a0, a1, a2, a3, a4⟩ := hagree c
  have e98 := Cert.PrefixAgree.v98_agree (fun b => m (c, b)) (StableHlo.launchContents m' c) a0 a1 a3 a4
  have e97 := Cert.PrefixAgree.v97_agree (fun b => m (c, b)) (StableHlo.launchContents m' c) a0 a1 a3 a4
  have e93 := Cert.PrefixAgree.v93_agree (fun b => m (c, b)) (StableHlo.launchContents m' c) a0 a1 a3 a4
  refine ⟨?_, ?_, ?_, ?_, ?_, ?_, ?_⟩
  · refine (h c _).trans ((Cert.ReferenceIdeal.RefValue.v125_end m' c).trans ?_)
    rw [e98, e97, a2]
    rfl
  · exact (h c _).trans ((Cert.ReferenceIdeal.RefValue.v93_end m' c).trans e93)
  · exact (h c _).trans (Cert.ReferenceIdeal.RefValue.arg0_end m' c)
  · exact (h c _).trans (Cert.ReferenceIdeal.RefValue.arg1_end m' c)
  · exact (h c _).trans (Cert.ReferenceIdeal.RefValue.arg2_end m' c)
  · exact (h c _).trans (Cert.ReferenceIdeal.RefValue.arg3_end m' c)
  · exact (h c _).trans (Cert.ReferenceIdeal.RefValue.arg4_end m' c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
